-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x128 .f32) (main_arg10 : FVec F S128 .f32) (main_arg11 : FVec F S128x1 .f32) (main_arg12 : FVec F S1 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x128 .f32) (main_arg10 : FVec F S128 .f32) (main_arg11 : FVec F S128x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x3 .f32) (main_arg1 : IVec S2x1600000 32) (main_arg2 : IVec S100000 32) (main_arg3 : FVec F S3x64 .f32) (main_arg4 : FVec F S64 .f32) (main_arg5 : FVec F S64x64 .f32) (main_arg6 : FVec F S64 .f32) (main_arg7 : FVec F S64x64 .f32) (main_arg8 : FVec F S64 .f32) (main_arg9 : FVec F S64x128 .f32) (main_arg10 : FVec F S128 .f32) (main_arg11 : FVec F S128x1 .f32) (main_arg12 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x3 : Shape := ⟨2, ![10000, 3]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S1x128 : Shape := ⟨2, ![1, 128]⟩
abbrev S1x1 : Shape := ⟨2, ![1, 1]⟩
abbrev S10000x1 : Shape := ⟨2, ![10000, 1]⟩
abbrev S128x64 : Shape := ⟨2, ![128, 64]⟩
abbrev S10000x128 : Shape := ⟨2, ![10000, 128]⟩
abbrev S128x128 : Shape := ⟨2, ![128, 128]⟩

abbrev nBuf : Space → Nat
  | .hbm => 111
  | .vmem => 29
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S1700000, .f32⟩
  | .hbm, ⟨22, _⟩ => ⟨S_, .f32⟩
  | .hbm, ⟨23, _⟩ => ⟨S100000, .f32⟩
  | .hbm, ⟨24, _⟩ => ⟨S1700000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x1, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S100000x1, .i32⟩
  | .hbm, ⟨107, _⟩ => ⟨S1x64, .f32⟩
  | .hbm, ⟨108, _⟩ => ⟨S1x128, .f32⟩
  | .hbm, ⟨109, _⟩ => ⟨S1x1, .f32⟩
  | .hbm, ⟨110, _⟩ => ⟨S128x1, .f32⟩
  | .local _ .vmem, ⟨0, _⟩ => ⟨S10000x3, .f32⟩
  | .local _ .vmem, ⟨1, _⟩ => ⟨S10000x3, .f32⟩
  | .local _ .vmem, ⟨2, _⟩ => ⟨S3x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x1, .i32⟩
  | .local _ .vmem, ⟨21, _⟩ => ⟨S10000x1, .i32⟩
  | .local _ .vmem, ⟨22, _⟩ => ⟨S64x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S128x1, .f32⟩
  | .local _ .vmem, ⟨27, _⟩ => ⟨S128x64, .f32⟩
  | .local _ .vmem, ⟨28, _⟩ => ⟨S128x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_scratch0 : Ref sig .tc := ⟨.vmem, 27, rfl⟩
abbrev cc3_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_17 : BitVec 32 := 0#32
  let v35 : BitVec 1 := Scalar.cmpi .ne v34 c0_i32_17
  v35

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  shapeCasts_S128_S1x128 : S128.ShapeCasts S1x128
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S10000x128_d1_w32 : S10000x128.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  natLt_1_32 : 1 < 32
  broadcasts_S128x1_S128x64 : S128x1.Broadcasts S128x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x3_S3x64_S10000x64_1_0_0_1_n_n_wf : DotDims.WF S10000x3 S3x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x128_S10000x64_S128x64_0_0_1_1_n_n_wf : DotDims.WF S10000x128 S10000x64 S128x64 [0] [0] [1] [1] [] []
  dot_S10000x128_S10000x1_S128x1_0_0_1_1_n_n_wf : DotDims.WF S10000x128 S10000x1 S128x1 [0] [0] [1] [1] [] []
  dot_S128x64_S64x128_S128x128_1_0_0_1_n_n_wf : DotDims.WF S128x64 S64x128 S128x128 [1] [0] [0] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .i32 = 32 ∨ (Rect.block (s := S100000x1) S10000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x1.size a ≤ S128x1.size a
  hwx3_7 : ∀ i : grid3.Coords, EltTy.bits .f32 = 32 ∨ (Rect.block (s := S128x1) S128x1.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def dot_S10000x128_S10000x1_S128x1_0_0_1_1_n_n : DotDims S10000x128 S10000x1 S128x1 where
  lhsContracting := [0]
  rhsContracting := [0]
  lhsNonContracting := [1]
  rhsNonContracting := [1]
  lhsBatch := []
  rhsBatch := []
  wf := dot_S10000x128_S10000x1_S128x1_0_0_1_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S128x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S128x64 : Shape := ⟨2, ![128, 64]⟩
abbrev S100000x1 : Shape := ⟨2, ![100000, 1]⟩
abbrev S128x128 : Shape := ⟨2, ![128, 128]⟩
abbrev S1x128 : Shape := ⟨2, ![1, 128]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x128, .f32⟩
  | 10 => ⟨S128, .f32⟩
  | 11 => ⟨S128x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x1, .f32⟩
  | 87 => ⟨S1700000x64, .f32⟩
  | 88 => ⟨S1700000x64, .f32⟩
  | 89 => ⟨S_, .f32⟩
  | 90 => ⟨S100000x64, .f32⟩
  | 91 => ⟨S1700000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x64, .f32⟩
  | 109 => ⟨S1700000x1, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S128x64, .f32⟩
  | 124 => ⟨S100000x1, .i32⟩
  | 125 => ⟨S128x64, .f32⟩
  | 126 => ⟨S_, .f32⟩
  | 127 => ⟨S100000, .f32⟩
  | _ => ⟨S100000x3, .f32⟩

abbrev hbmTy0_1 (i : Nat) : BufTy := match i % 128 with
  | 0 => ⟨S_, .f32⟩
  | 1 => ⟨S128, .f32⟩
  | 2 => ⟨S100000x1, .i32⟩
  | 3 => ⟨S128, .f32⟩
  | 4 => ⟨S_, .f32⟩
  | 5 => ⟨S128, .f32⟩
  | 6 => ⟨S128, .f32⟩
  | 7 => ⟨S128x1, .f32⟩
  | 8 => ⟨S128x64, .f32⟩
  | 9 => ⟨S128x64, .f32⟩
  | 10 => ⟨S128x128, .f32⟩
  | 11 => ⟨S1x128, .f32⟩
  | 12 => ⟨S128x128, .f32⟩
  | 13 => ⟨S128x128, .f32⟩
  | 14 => ⟨S_, .f32⟩
  | 15 => ⟨S128x128, .f32⟩
  | 16 => ⟨S128x128, .f32⟩
  | 17 => ⟨S128x1, .f32⟩
  | 18 => ⟨S1x1, .f32⟩
  | 19 => ⟨S128x1, .f32⟩
  | 20 => ⟨S128x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_call3_cst : Ref sig .tc := ⟨.hbm, 119, rfl⟩
abbrev main_call3_v0 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call4_cst : Ref sig .tc := ⟨.hbm, 142, rfl⟩
abbrev main_call4_v0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x64_S100000x64_1_0_0_1_n_n_wf : DotDims.WF S100000x3 S3x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x128_S128x128_1_0_0_1_n_n_wf : DotDims.WF S128x64 S64x128 S128x128 [1] [0] [0] [1] [] []
  dot_S128x128_S128x1_S128x1_1_0_0_1_n_n_wf : DotDims.WF S128x128 S128x1 S128x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.KReg0.lean ====
import proofs.«413861_j21509196218552_2_alg».proof.Proof.Gen.Kernel.Launch
import proofs.«413861_j21509196218552_2_alg».proof.Proof.Gen.Kernel.Skeleton
import proofs.«413861_j21509196218552_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x3 := Rect.unit (s := S10000x3) ![0, 0] S10000x3.size inb_S10000x3_S10000x3_0_0
abbrev r0_1 : Rect S3x64 := Rect.unit (s := S3x64) ![0, 0] S3x64.size inb_S3x64_S3x64_0_0
abbrev r0_2 : Rect S10000x64 := Rect.unit (s := S10000x64) ![0, 0] S10000x64.size inb_S10000x64_S10000x64_0_0

def out0_2 (x0 : Vec F S10000x3 .f32) (x1 : Vec F S3x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in

theorem sound_kernel0 (c : Dev nD) (E : Set ℕ) (i : grid0.Coords)
    (arg1 : Memref sig .tc .vmem S10000x3 .f32) (harg1 : arg1.IsWhole)
    (arg2 : Memref sig .tc .vmem S3x64 .f32) (harg2 : arg2.IsWhole)
    (arg3 : Memref sig .tc .vmem S10000x64 .f32) (harg3 : arg3.IsWhole)
    (x0 : Vec F S10000x3 .f32) (x1 : Vec F S3x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul0_kernel i arg1 harg1 arg2 harg2 arg3 harg3) K := by
  simp only [cc0__matmul0_kernel_eq_skeleton]; unfold cc0__matmul0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1.lean ====
import proofs.«413861_j21509196218552_2_alg».proof.Proof.Gen.Kernel.Launch
import proofs.«413861_j21509196218552_2_alg».proof.Proof.Gen.Kernel.Skeleton
import proofs.«413861_j21509196218552_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0

abbrev r1_1 : Rect S1x64 := Rect.unit (s := S1x64) ![0, 0] S1x64.size inb_S1x64_S1x64_0_0

abbrev r1_2 : Rect S64x64 := Rect.unit (s := S64x64) ![0, 0] S64x64.size inb_S64x64_S64x64_0_0

def out1_3 (x0 : Vec F S10000x64 .f32) (x1 : Vec F S1x64 .f32) (x2 : Vec F S64x64 .f32) : Vec F S10000x64 .f32 :=
  View.canon [⟨r1_0, k1_pay1 (View.ld x0 r1_0) (View.ld x1 r1_1) (View.ld x2 r1_2)⟩]

theorem cover1_3 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in

theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KReg2.lean ====
import proofs.«413861_j21509196218552_2_alg».proof.Proof.Gen.Kernel.Launch
import proofs.«413861_j21509196218552_2_alg».proof.Proof.Gen.Kernel.Skeleton
import proofs.«413861_j21509196218552_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0

abbrev r2_1 : Rect S1x64 := Rect.unit (s := S1x64) ![0, 0] S1x64.size inb_S1x64_S1x64_0_0

abbrev r2_2 : Rect S64x64 := Rect.unit (s := S64x64) ![0, 0] S64x64.size inb_S64x64_S64x64_0_0

def out2_3 (x0 : Vec F S10000x64 .f32) (x1 : Vec F S1x64 .f32) (x2 : Vec F S64x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in

theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bias_relu_matmul_kernel i arg1 harg1 arg2 harg2 arg3 harg3 arg4 harg4) K := by
  simp only [cc2__bias_relu_matmul_kernel_eq_skeleton]; unfold cc2__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KReg3Runs.lean ====
import proofs.«413861_j21509196218552_2_alg».proof.Proof.Gen.Kernel.Launch
import proofs.«413861_j21509196218552_2_alg».proof.Proof.Gen.Kernel.Skeleton
import proofs.«413861_j21509196218552_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel

theorem idleAt3_7_A : ∀ t : Fin cfg3.N, cond3_0 (grid3.coords t) → ¬cond3_1 (grid3.coords t) → cfg3.idle 7 (grid3.coords t) = true := by decide +kernel
theorem noFlush3_7_A : ∀ t : Fin cfg3.N, cond3_0 (grid3.coords t) → ¬cond3_1 (grid3.coords t) → (cfg3.win 7).flush t = false := by decide +kernel

theorem idleAt3_7_B : ∀ t : Fin cfg3.N, ¬cond3_0 (grid3.coords t) → ¬cond3_1 (grid3.coords t) → cfg3.idle 7 (grid3.coords t) = true := by decide +kernel
theorem noFlush3_7_B : ∀ t : Fin cfg3.N, ¬cond3_0 (grid3.coords t) → ¬cond3_1 (grid3.coords t) → (cfg3.win 7).flush t = false := by decide +kernel

theorem liveAt3_7_C : ∀ t : Fin cfg3.N, ¬cond3_0 (grid3.coords t) → cond3_1 (grid3.coords t) → cfg3.idle 7 (grid3.coords t) = false := by decide +kernel

abbrev VO3_7 : View sig .tc .vmem S128x1 .f32 := (Memref.whole cc3_stg7_0 : Memref sig .tc .vmem S128x1 .f32).view
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x1 .f32 := win3_7.stage (cfg3.slots t 7)
abbrev hs3_7 (t : Fin cfg3.N) : (ms3_7 t).IsWhole := hstage3_7 ((cfg3.slots t 7).cast nbuf3_7)

abbrev scM3_0 : Memref sig .tc .vmem S128x64 .f32 := Memref.whole cc3_scratch0
abbrev scM3_1 : Memref sig .tc .vmem S128x1 .f32 := Memref.whole cc3_scratch1
abbrev VS3_0 : View sig .tc .vmem S128x64 .f32 := scM3_0.view
abbrev VS3_1 : View sig .tc .vmem S128x1 .f32 := scM3_1.view

def others3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA3_split (c : Dev nD) :
    (Pipeline.ΦA spec3 c : sProp 𝕄)
      ⊢ iprop(others3 c ∗ (∃ d, owns (c : Thread nD τ) scM3_0 fullShare d) ∗ (∃ d, owns (c : Thread nD τ) scM3_1 fullShare d) ∗ (∃ r, prngReg c r)) := by
  unfold Pipeline.ΦA others3; rw [scopedRest3_eq]; simp only [scM3_0, scM3_1, owns_whole]
  iintro ⟨⟨H0, H1, H2, H3, H4, H5, H6, H7, H8, H9, H10, H11, H12, H13, H14, H15, H16, HS0, HS1⟩, Hg⟩
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS0]; · iexact HS0
  isplitl [HS1]; · iexact HS1
  iexact Hg

theorem PhiA3_join (c : Dev nD) :
    iprop(others3 c ∗ (∃ d, owns (c : Thread nD τ) scM3_0 fullShare d) ∗ (∃ d, owns (c : Thread nD τ) scM3_1 fullShare d) ∗ (∃ r, prngReg c r))
      ⊢ (Pipeline.ΦA spec3 c : sProp 𝕄) := by
  unfold Pipeline.ΦA others3; rw [scopedRest3_eq]; simp only [scM3_0, scM3_1, owns_whole]
  iintro ⟨⟨H0, H1, H2, H3, H4, H5, H6, H7, H8, H9, H10, H11, H12, H13, H14, H15, H16⟩, HS0, HS1, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    iexact HS1
  iexact Hg

end Cert.Kernel.Hand

end
-- ==== Proof.KReg3RunA.lean ====
import proofs.«413861_j21509196218552_2_alg».proof.Proof.KReg3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x64 .f32) (harg9 : arg9.IsWhole) (arg10 : Memref sig .tc .vmem S128x1 .f32) (harg10 : arg10.IsWhole) (hc0 : cond3_0 i) (hc1 : ¬cond3_1 i)
    (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) :
    Σ' (L7 : List (View.Piece (Elt F) S128x1 .f32)) (LS0 : List (View.Piece (Elt F) S128x64 .f32)), { LS1 : List (View.Piece (Elt F) S128x1 .f32) //
      ∀ (xi7 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KReg3RunB.lean ====
import proofs.«413861_j21509196218552_2_alg».proof.Proof.KReg3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x64 .f32) (harg9 : arg9.IsWhole) (arg10 : Memref sig .tc .vmem S128x1 .f32) (harg10 : arg10.IsWhole) (hc0 : ¬cond3_0 i) (hc1 : ¬cond3_1 i)
    (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32) :
    Σ' (L7 : List (View.Piece (Elt F) S128x1 .f32)) (LS0 : List (View.Piece (Elt F) S128x64 .f32)), { LS1 : List (View.Piece (Elt F) S128x1 .f32) //
      ∀ (xi7 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KReg3RunC.lean ====
import proofs.«413861_j21509196218552_2_alg».proof.Proof.KReg3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x64 .f32) (harg9 : arg9.IsWhole) (arg10 : Memref sig .tc .vmem S128x1 .f32) (harg10 : arg10.IsWhole) (hc0 : ¬cond3_0 i) (hc1 : cond3_1 i)
    (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32) :
    Σ' (L7 : List (View.Piece (Elt F) S128x1 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.Kernel.Hand

end
-- ==== Proof.KReg3.lean ====
import proofs.«413861_j21509196218552_2_alg».proof.Proof.KReg3RunA
import proofs.«413861_j21509196218552_2_alg».proof.Proof.KReg3RunB
import proofs.«413861_j21509196218552_2_alg».proof.Proof.KReg3RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces
variable (c : Dev nD) (i : grid3.Coords) (arg1 : Memref sig .tc .vmem S10000x64 .f32) (harg1 : arg1.IsWhole) (arg2 : Memref sig .tc .vmem S1x64 .f32) (harg2 : arg2.IsWhole)
  (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole)
  (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole)
  (arg9 : Memref sig .tc .vmem S128x64 .f32) (harg9 : arg9.IsWhole) (arg10 : Memref sig .tc .vmem S128x1 .f32) (harg10 : arg10.IsWhole)

section CaseA
variable (hc0 : cond3_0 i) (hc1 : ¬cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32)

def out3_A_7 : Vec F S128x1 .f32 :=
  VO3_7.read (Elt F) (VO3_7.writes (Elt F) VO3_7.junk (kernelRun3_A c i arg1 harg1 arg2 harg2 arg3 harg3 arg4 harg4 arg5 harg5 arg6 harg6 arg7 harg7 arg8 harg8 arg9 harg9 arg10 harg10 hc0 hc1 x0 x1 x2 x3 x4 x5 x6).1)

theorem scover3_A_0 (y : S128x64.Idx) : ∃ pc ∈ (kernelRun3_A c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL _ S128x64.size (by sl_kernel_rfl) y

def sout3_A_0 : Vec F S128x64 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 hc0 hc1 x0 x1 x2 x3 x4 x5 x6).2.1)

theorem scover3_A_1 (y : S128x1.Idx) : ∃ pc ∈ (kernelRun3_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL _ S128x1.size (by sl_kernel_rfl) y

def sout3_A_1 : Vec F S128x1 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 hc0 hc1 x0 x1 x2 x3 x4 x5 x6).2.2.1)

end CaseA

section CaseB
variable (hc0 : ¬cond3_0 i) (hc1 : ¬cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32)

def out3_B_7 : Vec F S128x1 .f32 :=
  VO3_7.read (Elt F) (VO3_7.writes (Elt F) VO3_7.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).1)

theorem scover3_B_0 (y : S128x64.Idx) : ∃ pc ∈ (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL _ S128x64.size (by sl_kernel_rfl) y

def sout3_B_0 : Vec F S128x64 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.1)

theorem scover3_B_1 (y : S128x1.Idx) : ∃ pc ∈ (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL _ S128x1.size (by sl_kernel_rfl) y

def sout3_B_1 : Vec F S128x1 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

end CaseB

section CaseC
variable (hc0 : ¬cond3_0 i) (hc1 : cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32)

theorem cover3_C_7 (y : S128x1.Idx) : ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).1, y ∈ pc.1.set :=
  View.cover_of_tiledL _ S128x1.size (by sl_kernel_rfl) y

def out3_C_7 : Vec F S128x1 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).1)

theorem scover3_C_0 (y : S128x64.Idx) : ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL _ S128x64.size (by sl_kernel_rfl) y

def sout3_C_0 : Vec F S128x64 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.1)

theorem scover3_C_1 (y : S128x1.Idx) : ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL _ S128x1.size (by sl_kernel_rfl) y

def sout3_C_1 : Vec F S128x1 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

end CaseC

end Pieces

def ptA (c : Dev nD) (t : Fin cfg3.N) (h0 : t.val % 10 = 0) (h1 : ¬t.val % 10 = 9) : Vec F S128x1 .f32 × Vec F S128x64 .f32 × Vec F S128x1 .f32 :=
  (out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
    sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
    sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))

def ptB (c : Dev nD) (t : Fin cfg3.N) (h0 : ¬t.val % 10 = 0) (h1 : ¬t.val % 10 = 9) (xs0 : Vec F S128x64 .f32) (xs1 : Vec F S128x1 .f32) : Vec F S128x1 .f32 × Vec F S128x64 .f32 × Vec F S128x1 .f32 :=
  (out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
    sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
    sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1)

def ptC (c : Dev nD) (t : Fin cfg3.N) (h0 : ¬t.val % 10 = 0) (h1 : t.val % 10 = 9) (xs0 : Vec F S128x64 .f32) (xs1 : Vec F S128x1 .f32) : Vec F S128x1 .f32 × Vec F S128x64 .f32 × Vec F S128x1 .f32 :=
  (out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1)

-- the first point starts the two accumulators afresh; every later point works on what the point before left
def outsAt3 (c : Dev nD) : (n : ℕ) → n < cfg3.N → Vec F S128x1 .f32 × Vec F S128x64 .f32 × Vec F S128x1 .f32
  | 0, hn => ptA V c ⟨0, hn⟩ (Nat.zero_mod _) (by show ¬(0 : ℕ) % 10 = 9; decide)
  | n + 1, hn =>
    if h0 : (n + 1) % 10 = 0 then
      if h1 : (n + 1) % 10 = 9 then absurd (h0.symm.trans h1) (by decide)
      else ptA V c ⟨n + 1, hn⟩ h0 h1
    else
      if h1 : (n + 1) % 10 = 9 then ptC V c ⟨n + 1, hn⟩ h0 h1 (outsAt3 c n (Nat.lt_of_succ_lt hn)).2.1 (outsAt3 c n (Nat.lt_of_succ_lt hn)).2.2
      else ptB V c ⟨n + 1, hn⟩ h0 h1 (outsAt3 c n (Nat.lt_of_succ_lt hn)).2.1 (outsAt3 c n (Nat.lt_of_succ_lt hn)).2.2

theorem outsAt3_A (c : Dev nD) (t : Fin cfg3.N) (h0 : t.val % 10 = 0) (h1 : ¬t.val % 10 = 9) :
    outsAt3 V c t.val t.isLt = ptA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = ptB V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 10 = 0) (h1 : t.val % 10 = 9) :
    outsAt3 V c t.val t.isLt = ptC V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

def PhiS3 (c : Dev nD) : (n : ℕ) → n ≤ cfg3.N → sProp 𝕄
  | 0, _ => Pipeline.ΦA spec3 c
  | n + 1, hn => iprop(others3 c ∗ owns (c : Thread nD τ) scM3_0 fullShare ((outsAt3 V c n hn).2.1) ∗ owns (c : Thread nD τ) scM3_1 fullShare ((outsAt3 V c n hn).2.2) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(others3 c ∗ owns (c : Thread nD τ) scM3_0 fullShare ((outsAt3 V c n hn).2.1) ∗ owns (c : Thread nD τ) scM3_1 fullShare ((outsAt3 V c n hn).2.2) ∗ (∃ r, prngReg c r)) := rfl

theorem PhiS3_pos (c : Dev nD) (n : ℕ) (h : n ≤ cfg3.N) (hz : n ≠ 0) :
    PhiS3 V c n h = iprop(others3 c ∗ owns (c : Thread nD τ) scM3_0 fullShare ((outsAt3 V c (n - 1) (by omega)).2.1) ∗ owns (c : Thread nD τ) scM3_1 fullShare ((outsAt3 V c (n - 1) (by omega)).2.2) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  have hN : t.val < 10 := lt_of_lt_of_eq t.isLt (show cfg3.N = 10 from N_3)
  by_cases h0 : t.val % 10 = 0
  · by_cases h1 : t.val % 10 = 9
    · exfalso; omega
    · rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
      rw [outsAt3_A V c t h0 h1]
      unfold ptA sout3_A_0 sout3_A_1; (try dsimp only)
      by_cases hz : t.val = 0
      · rw [PhiS3_castSucc V c t, PhiS3_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦ' := (PhiA3_split c) $$ HΦ
        icases HΦ' with ⟨Hoth, HS0, HS1, Hg⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; omega
  · by_cases h1 : t.val % 10 = 9
    · rw [show (dat3 V c).leavesExact 7 t = owns (c : Thread nD τ) (ms3_7 t) fullShare ((dat3 V c).after 7 t) from by
        unfold Dat.leavesExact; rw [liveAt3_7_C t (fun h => h0 ((hcond3_0 t).mp h)) ((hcond3_1 t).mpr h1)], after3_7]
      rw [outsAt3_C V c t h0 h1]
      unfold ptC out3_C_7 sout3_C_0 sout3_C_1; (try dsimp only)
      by_cases hz : t.val = 0
      · exfalso; omega
      · rw [PhiS3_castSucc V c t, PhiS3_pos V c _ _ hz]
        iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_C c (grid3.coords t) _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_C_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover3_C_7 c _ _ _ _ _ _ _ _ _ _ _ _ _ _ _ _ _ _ _ _ _ _ _ _ _ _ _ _ _ _ _ _)
    · rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [outsAt3_B V c t h0 h1]
      unfold ptB sout3_B_0 sout3_B_1; (try dsimp only)
      by_cases hz : t.val = 0
      · exfalso; omega
      · rw [PhiS3_castSucc V c t, PhiS3_pos V c _ _ hz]
        iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_B c (grid3.coords t) _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  iintro ⟨Hoth, HS0, HS1, Hg⟩
  iapply (PhiA3_join c)
  isplitl [Hoth]; · iexact Hoth
  isplitl [HS0]; · iexists _; iexact HS0
  isplitl [HS1]; · iexists _; iexact HS1
  iexact Hg

theorem hout3 (c : Dev nD) : (dat3 V c).Φ (Fin.last cfg3.N) ⊢ Pipeline.ΦA spec3 c :=
  Phi_out3 V c _ (by rw [Fin.val_last]; have : cfg3.N = 10 := N_3; omega)

end Cert.Kernel.Hand

end
-- ==== Proof.KAsmDefs.lean ====
import proofs.«413861_j21509196218552_2_alg».proof.Proof.KReg0
import proofs.«413861_j21509196218552_2_alg».proof.Proof.KReg1
import proofs.«413861_j21509196218552_2_alg».proof.Proof.KReg2
import proofs.«413861_j21509196218552_2_alg».proof.Proof.KReg3
import proofs.«413861_j21509196218552_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev Y3 (c : Dev nD) : Valuation τ sig (Elt F) := Gen.V3 m c
abbrev E0 (c : Dev nD) (b : Ref sig .tc) : Buf (Elt F) ((c : Thread nD τ).loc b) := Y3 m c b

def X0 (c : Dev nD) : Valuation τ sig (Elt F) :=
  Pipeline.withArrays spec0 c (Y3 m c) fun w => (dat0 (E0 m) c).arrAt w cfg0.N

abbrev Y5 (c : Dev nD) : Valuation τ sig (Elt F) := StableHlo.after hostOps1 (Function.update (Y3 m c) main_v30 (X0 m c main_v30))
abbrev E1 (c : Dev nD) (b : Ref sig .tc) : Buf (Elt F) ((c : Thread nD τ).loc b) := Y5 m c b
def X1 (c : Dev nD) : Valuation τ sig (Elt F) :=
  Pipeline.withArrays spec1 c (Y5 m c) fun w => (dat1 (E1 m) c).arrAt w cfg1.N
abbrev Y7 (c : Dev nD) : Valuation τ sig (Elt F) := StableHlo.after hostOps2 (Function.update (Y5 m c) main_v45 (X1 m c main_v45))
abbrev E2 (c : Dev nD) (b : Ref sig .tc) : Buf (Elt F) ((c : Thread nD τ).loc b) := Y7 m c b
def X2 (c : Dev nD) : Valuation τ sig (Elt F) :=
  Pipeline.withArrays spec2 c (Y7 m c) fun w => (dat2 (E2 m) c).arrAt w cfg2.N
abbrev Y9 (c : Dev nD) : Valuation τ sig (Elt F) := StableHlo.after hostOps3 (Function.update (Y7 m c) main_v60 (X2 m c main_v60))
abbrev E3 (c : Dev nD) (b : Ref sig .tc) : Buf (Elt F) ((c : Thread nD τ).loc b) := Y9 m c b
def X3 (c : Dev nD) : Valuation τ sig (Elt F) :=
  Pipeline.withArrays spec3 c (Y9 m c) fun w => (dat3 (E3 m) c).arrAt w cfg3.N

def outs : Gen.Outs (F := F) := fun J r c =>
  match J with
  | 4 => X0 m c r
  | 6 => X1 m c r
  | 8 => X2 m c r
  | _ => X3 m c r

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

end Cert.Kernel.Hand

end
-- ==== Proof.KAsm.lean ====
import proofs.«413861_j21509196218552_2_alg».proof.Proof.KAsmDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem hF0 (c : Dev nD) : ∀ w : Fin cfg0.W, (pdats m 0 c).arrAt w cfg0.N = Gen.V4 m (outs m) c (Pipeline.arrRef spec0 w)
  | ⟨0, _⟩ => (((dat0 (E0 m) c).arrAt_in 0 rfl _).trans (A_eq0 (E0 m) c 0)).trans (Gen.V4_of m (outs m) c main_arg0 (by decide)).symm
  | ⟨1, _⟩ => (((dat0 (E0 m) c).arrAt_in 1 rfl _).trans (A_eq0 (E0 m) c 1)).trans (Gen.V4_of m (outs m) c main_arg3 (by decide)).symm
  | ⟨2, _⟩ => by
      have h : Gen.V4 m (outs m) c (Proc.devRef .tc main_v30) = X0 m c (Proc.devRef .tc main_v30) := Function.update_self _ _ _
      exact (Pipeline.withArrays_arr spec0 launch0.win.arr_inj c _ _ 2).symm.trans h.symm
theorem hrest0 (c : Dev nD) : ∀ b, b ∉ Finset.univ.image (Pipeline.arrRef spec0) → Gen.V4 m (outs m) c b = E0 m c b :=
  fun b hb => Gen.V4_of m (outs m) c b (fun h => hb (Finset.mem_image.mpr ⟨2, Finset.mem_univ _, (List.mem_singleton.mp h).symm⟩))

theorem hF1 (c : Dev nD) : ∀ w : Fin cfg1.W, (pdats m 1 c).arrAt w cfg1.N = Gen.V6 m (outs m) c (Pipeline.arrRef spec1 w)
  | ⟨0, _⟩ => (((dat1 (E1 m) c).arrAt_in 0 rfl _).trans (A_eq1 (E1 m) c 0)).trans (Gen.V6_of m (outs m) c main_v43 (by decide)).symm
  | ⟨1, _⟩ => (((dat1 (E1 m) c).arrAt_in 1 rfl _).trans (A_eq1 (E1 m) c 1)).trans (Gen.V6_of m (outs m) c main_v44 (by decide)).symm
  | ⟨2, _⟩ => (((dat1 (E1 m) c).arrAt_in 2 rfl _).trans (A_eq1 (E1 m) c 2)).trans (Gen.V6_of m (outs m) c main_arg5 (by decide)).symm
  | ⟨3, _⟩ => by
      have h : Gen.V6 m (outs m) c (Proc.devRef .tc main_v45) = X1 m c (Proc.devRef .tc main_v45) := Function.update_self _ _ _
      exact (Pipeline.withArrays_arr spec1 launch1.win.arr_inj c _ _ 3).symm.trans h.symm
theorem hrest1 (c : Dev nD) : ∀ b, b ∉ Finset.univ.image (Pipeline.arrRef spec1) → Gen.V6 m (outs m) c b = E1 m c b :=
  fun b hb => Gen.V6_of m (outs m) c b (fun h => hb (Finset.mem_image.mpr ⟨3, Finset.mem_univ _, (List.mem_singleton.mp h).symm⟩))

theorem hF2 (c : Dev nD) : ∀ w : Fin cfg2.W, (pdats m 2 c).arrAt w cfg2.N = Gen.V8 m (outs m) c (Pipeline.arrRef spec2 w)
  | ⟨0, _⟩ => (((dat2 (E2 m) c).arrAt_in 0 rfl _).trans (A_eq2 (E2 m) c 0)).trans (Gen.V8_of m (outs m) c main_v58 (by decide)).symm
  | ⟨1, _⟩ => (((dat2 (E2 m) c).arrAt_in 1 rfl _).trans (A_eq2 (E2 m) c 1)).trans (Gen.V8_of m (outs m) c main_v59 (by decide)).symm
  | ⟨2, _⟩ => (((dat2 (E2 m) c).arrAt_in 2 rfl _).trans (A_eq2 (E2 m) c 2)).trans (Gen.V8_of m (outs m) c main_arg7 (by decide)).symm
  | ⟨3, _⟩ => by
      have h : Gen.V8 m (outs m) c (Proc.devRef .tc main_v60) = X2 m c (Proc.devRef .tc main_v60) := Function.update_self _ _ _
      exact (Pipeline.withArrays_arr spec2 launch2.win.arr_inj c _ _ 3).symm.trans h.symm
theorem hrest2 (c : Dev nD) : ∀ b, b ∉ Finset.univ.image (Pipeline.arrRef spec2) → Gen.V8 m (outs m) c b = E2 m c b :=
  fun b hb => Gen.V8_of m (outs m) c b (fun h => hb (Finset.mem_image.mpr ⟨3, Finset.mem_univ _, (List.mem_singleton.mp h).symm⟩))

set_option maxHeartbeats 1000000 in
theorem hF3 (c : Dev nD) : ∀ w : Fin cfg3.W, (pdats m 3 c).arrAt w cfg3.N = Gen.V10 m (outs m) c (Pipeline.arrRef spec3 w)
  | ⟨0, _⟩ => (((dat3 (E3 m) c).arrAt_in 0 rfl _).trans (A_eq3 (E3 m) c 0)).trans (Gen.V10_of m (outs m) c main_v73 (by decide)).symm
  | ⟨1, _⟩ => (((dat3 (E3 m) c).arrAt_in 1 rfl _).trans (A_eq3 (E3 m) c 1)).trans (Gen.V10_of m (outs m) c main_v75 (by decide)).symm
  | ⟨2, _⟩ => (((dat3 (E3 m) c).arrAt_in 2 rfl _).trans (A_eq3 (E3 m) c 2)).trans (Gen.V10_of m (outs m) c main_v74 (by decide)).symm
  | ⟨3, _⟩ => (((dat3 (E3 m) c).arrAt_in 3 rfl _).trans (A_eq3 (E3 m) c 3)).trans (Gen.V10_of m (outs m) c main_arg9 (by decide)).symm
  | ⟨4, _⟩ => (((dat3 (E3 m) c).arrAt_in 4 rfl _).trans (A_eq3 (E3 m) c 4)).trans (Gen.V10_of m (outs m) c main_v76 (by decide)).symm
  | ⟨5, _⟩ => (((dat3 (E3 m) c).arrAt_in 5 rfl _).trans (A_eq3 (E3 m) c 5)).trans (Gen.V10_of m (outs m) c main_arg11 (by decide)).symm
  | ⟨6, _⟩ => (((dat3 (E3 m) c).arrAt_in 6 rfl _).trans (A_eq3 (E3 m) c 6)).trans (Gen.V10_of m (outs m) c main_v77 (by decide)).symm
  | ⟨7, _⟩ => by
      have h : Gen.V10 m (outs m) c (Proc.devRef .tc main_v78) = X3 m c (Proc.devRef .tc main_v78) := Function.update_self _ _ _
      exact (Pipeline.withArrays_arr spec3 launch3.win.arr_inj c _ _ 7).symm.trans h.symm
theorem hrest3 (c : Dev nD) : ∀ b, b ∉ Finset.univ.image (Pipeline.arrRef spec3) → Gen.V10 m (outs m) c b = E3 m c b :=
  fun b hb => Gen.V10_of m (outs m) c b (fun h => hb (Finset.mem_image.mpr ⟨7, Finset.mem_univ _, (List.mem_singleton.mp h).symm⟩))

-- the four regions differ only in their data, so one constructor serves them all
set_option backward.isDefEq.respectTransparency.types false in
def regOf (p : Fin 4) (lf : Pipeline.LaunchFacts (nD := nD) (τ := τ) cfgs p) (Vi Vo : Dev nD → Valuation τ sig (Elt F))
    (hb : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = Vi c (Pipeline.arrRef (cfgs p).spec w))
    (hF : ∀ c w, (pdats m p c).arrAt w (cfgs p).N = Vo c (Pipeline.arrRef (cfgs p).spec w))
    (hrest : ∀ c b, b ∉ Finset.univ.image (Pipeline.arrRef (cfgs p).spec) → Vo c b = Vi c b)
    (hΦ0 : ∀ c, Pipeline.ΦA (cfgs p).spec c ⊢ (pdats m p c).Φ 0)
    (hΦN : ∀ c, (pdats m p c).Φ (Fin.last _) ⊢ Pipeline.ΦA (cfgs p).spec c) :
    RegionSeg (pcfgs (F := F)) adm (pdats m) () defs₀ Variants.none Lz lvz p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lz lvz p howed
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    rw [Pipeline.ownSems0_none]
    refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (Y3 m) (Gen.V4 m (outs m)) (body_obligation0 (E0 m)) (fun _ _ => rfl) (fun _ _ => rfl) (fun _ _ => rfl)
  (fun _ _ => rfl) (hF0 m) (hrest0 m) (fun _ => .rfl) (fun _ => .rfl)
def reg1 := regOf m 1 launch1 (Y5 m) (Gen.V6 m (outs m)) (body_obligation1 (E1 m)) (fun _ _ => rfl) (fun _ _ => rfl) (fun _ _ => rfl)
  (fun _ _ => rfl) (hF1 m) (hrest1 m) (fun _ => .rfl) (fun _ => .rfl)
def reg2 := regOf m 2 launch2 (Y7 m) (Gen.V8 m (outs m)) (body_obligation2 (E2 m)) (fun _ _ => rfl) (fun _ _ => rfl) (fun _ _ => rfl)
  (fun _ _ => rfl) (hF2 m) (hrest2 m) (fun _ => .rfl) (fun _ => .rfl)
def reg3 := regOf m 3 launch3 (Y9 m) (Gen.V10 m (outs m)) (body_obligation3 (E3 m)) (fun _ _ => rfl) (fun _ _ => rfl) (fun _ _ => rfl)
  (fun _ _ => rfl) (hF3 m) (hrest3 m) (hin3 (E3 m)) (hout3 (E3 m))

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => Rr (F := F) c) : sProp 𝕄) := by
  have hcore : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) ⊢ Rr (F := F) c := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => Rr (F := F) c) : sProp 𝕄) := bigSep_mono fun c _ => hcore c
  iintro ⟨H, Hl⟩
  ihave H' := hmono $$ H
  imodintro
  iexact H'

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

end Cert.Kernel.Hand

end
-- ==== Proof.KFrame.lean ====
import proofs.«413861_j21509196218552_2_alg».proof.Proof.KAsm

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := launch_ghost)
    (E := fun _ c => Rr c) (hE0 := launch_rest ρ)
    (hE4 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

end Cert.Kernel.Hand

end
-- ==== Proof.Reg0.lean ====
import proofs.«413861_j21509196218552_2_alg».proof.Proof.Gen.KernelIdeal.Launch
import proofs.«413861_j21509196218552_2_alg».proof.Proof.Gen.KernelIdeal.Skeleton
import proofs.«413861_j21509196218552_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x3 := Rect.unit (s := S10000x3) ![0, 0] S10000x3.size inb_S10000x3_S10000x3_0_0
abbrev r0_1 : Rect S3x64 := Rect.unit (s := S3x64) ![0, 0] S3x64.size inb_S3x64_S3x64_0_0
abbrev r0_2 : Rect S10000x64 := Rect.unit (s := S10000x64) ![0, 0] S10000x64.size inb_S10000x64_S10000x64_0_0

def out0_2 (x0 : Vec F S10000x3 .f32) (x1 : Vec F S3x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in

theorem sound_kernel0 (c : Dev nD) (E : Set ℕ) (i : grid0.Coords)
    (arg1 : Memref sig .tc .vmem S10000x3 .f32) (harg1 : arg1.IsWhole)
    (arg2 : Memref sig .tc .vmem S3x64 .f32) (harg2 : arg2.IsWhole)
    (arg3 : Memref sig .tc .vmem S10000x64 .f32) (harg3 : arg3.IsWhole)
    (x0 : Vec F S10000x3 .f32) (x1 : Vec F S3x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul0_kernel i arg1 harg1 arg2 harg2 arg3 harg3) K := by
  simp only [cc0__matmul0_kernel_eq_skeleton]; unfold cc0__matmul0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Reg1.lean ====
import proofs.«413861_j21509196218552_2_alg».proof.Proof.Gen.KernelIdeal.Launch
import proofs.«413861_j21509196218552_2_alg».proof.Proof.Gen.KernelIdeal.Skeleton
import proofs.«413861_j21509196218552_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0

abbrev r1_1 : Rect S1x64 := Rect.unit (s := S1x64) ![0, 0] S1x64.size inb_S1x64_S1x64_0_0

abbrev r1_2 : Rect S64x64 := Rect.unit (s := S64x64) ![0, 0] S64x64.size inb_S64x64_S64x64_0_0

def out1_3 (x0 : Vec F S10000x64 .f32) (x1 : Vec F S1x64 .f32) (x2 : Vec F S64x64 .f32) : Vec F S10000x64 .f32 :=
  View.canon [⟨r1_0, k1_pay1 (View.ld x0 r1_0) (View.ld x1 r1_1) (View.ld x2 r1_2)⟩]

theorem cover1_3 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in

theorem sound_kernel1 (c : Dev nD) (E : Set ℕ) (i : grid1.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Reg2.lean ====
import proofs.«413861_j21509196218552_2_alg».proof.Proof.Gen.KernelIdeal.Launch
import proofs.«413861_j21509196218552_2_alg».proof.Proof.Gen.KernelIdeal.Skeleton
import proofs.«413861_j21509196218552_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0

abbrev r2_1 : Rect S1x64 := Rect.unit (s := S1x64) ![0, 0] S1x64.size inb_S1x64_S1x64_0_0

abbrev r2_2 : Rect S64x64 := Rect.unit (s := S64x64) ![0, 0] S64x64.size inb_S64x64_S64x64_0_0

def out2_3 (x0 : Vec F S10000x64 .f32) (x1 : Vec F S1x64 .f32) (x2 : Vec F S64x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in

theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__bias_relu_matmul_kernel i arg1 harg1 arg2 harg2 arg3 harg3 arg4 harg4) K := by
  simp only [cc2__bias_relu_matmul_kernel_eq_skeleton]; unfold cc2__bias_relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Reg3Runs.lean ====
import proofs.«413861_j21509196218552_2_alg».proof.Proof.Gen.KernelIdeal.Launch
import proofs.«413861_j21509196218552_2_alg».proof.Proof.Gen.KernelIdeal.Skeleton
import proofs.«413861_j21509196218552_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 10 = 0 :=
  (by decide +kernel : ∀ t : Fin grid3.N, cond3_0 (grid3.coords t) ↔ t.val % 10 = 0)

abbrev cond3_1 (i : grid3.Coords) : Prop := k3_cond2 i = 1#1
theorem hcond3_1 : ∀ t : Fin cfg3.N, cond3_1 (grid3.coords t) ↔ t.val % 10 = 9 :=
  (by decide +kernel : ∀ t : Fin grid3.N, cond3_1 (grid3.coords t) ↔ t.val % 10 = 9)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel

theorem idleAt3_7_A : ∀ t : Fin cfg3.N, cond3_0 (grid3.coords t) → ¬cond3_1 (grid3.coords t) → cfg3.idle 7 (grid3.coords t) = true := by decide +kernel
theorem noFlush3_7_A : ∀ t : Fin cfg3.N, cond3_0 (grid3.coords t) → ¬cond3_1 (grid3.coords t) → (cfg3.win 7).flush t = false := by decide +kernel

theorem idleAt3_7_B : ∀ t : Fin cfg3.N, ¬cond3_0 (grid3.coords t) → ¬cond3_1 (grid3.coords t) → cfg3.idle 7 (grid3.coords t) = true := by decide +kernel
theorem noFlush3_7_B : ∀ t : Fin cfg3.N, ¬cond3_0 (grid3.coords t) → ¬cond3_1 (grid3.coords t) → (cfg3.win 7).flush t = false := by decide +kernel

theorem liveAt3_7_C : ∀ t : Fin cfg3.N, ¬cond3_0 (grid3.coords t) → cond3_1 (grid3.coords t) → cfg3.idle 7 (grid3.coords t) = false := by decide +kernel

abbrev VO3_7 : View sig .tc .vmem S128x1 .f32 := (Memref.whole cc3_stg7_0 : Memref sig .tc .vmem S128x1 .f32).view
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x1 .f32 := win3_7.stage (cfg3.slots t 7)
abbrev hs3_7 (t : Fin cfg3.N) : (ms3_7 t).IsWhole := hstage3_7 ((cfg3.slots t 7).cast nbuf3_7)

abbrev scM3_0 : Memref sig .tc .vmem S128x64 .f32 := Memref.whole cc3_scratch0
abbrev scM3_1 : Memref sig .tc .vmem S128x1 .f32 := Memref.whole cc3_scratch1
abbrev VS3_0 : View sig .tc .vmem S128x64 .f32 := scM3_0.view
abbrev VS3_1 : View sig .tc .vmem S128x1 .f32 := scM3_1.view

def others3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA3_split (c : Dev nD) :
    (Pipeline.ΦA spec3 c : sProp 𝕄)
      ⊢ iprop(others3 c ∗ (∃ d, owns (c : Thread nD τ) scM3_0 fullShare d) ∗ (∃ d, owns (c : Thread nD τ) scM3_1 fullShare d) ∗ (∃ r, prngReg c r)) := by
  unfold Pipeline.ΦA others3; rw [scopedRest3_eq]; simp only [scM3_0, scM3_1, owns_whole]
  iintro ⟨⟨H0, H1, H2, H3, H4, H5, H6, H7, H8, H9, H10, H11, H12, H13, H14, H15, H16, HS0, HS1⟩, Hg⟩
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS0]; · iexact HS0
  isplitl [HS1]; · iexact HS1
  iexact Hg

theorem PhiA3_join (c : Dev nD) :
    iprop(others3 c ∗ (∃ d, owns (c : Thread nD τ) scM3_0 fullShare d) ∗ (∃ d, owns (c : Thread nD τ) scM3_1 fullShare d) ∗ (∃ r, prngReg c r))
      ⊢ (Pipeline.ΦA spec3 c : sProp 𝕄) := by
  unfold Pipeline.ΦA others3; rw [scopedRest3_eq]; simp only [scM3_0, scM3_1, owns_whole]
  iintro ⟨⟨H0, H1, H2, H3, H4, H5, H6, H7, H8, H9, H10, H11, H12, H13, H14, H15, H16⟩, HS0, HS1, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    iexact HS1
  iexact Hg

end Cert.KernelIdeal.Hand

end
-- ==== Proof.Reg3RunA.lean ====
import proofs.«413861_j21509196218552_2_alg».proof.Proof.Reg3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun3_A (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x64 .f32) (harg9 : arg9.IsWhole) (arg10 : Memref sig .tc .vmem S128x1 .f32) (harg10 : arg10.IsWhole) (hc0 : cond3_0 i) (hc1 : ¬cond3_1 i)
    (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) :
    Σ' (L7 : List (View.Piece (Elt F) S128x1 .f32)) (LS0 : List (View.Piece (Elt F) S128x64 .f32)), { LS1 : List (View.Piece (Elt F) S128x1 .f32) //
      ∀ (xi7 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.Reg3RunB.lean ====
import proofs.«413861_j21509196218552_2_alg».proof.Proof.Reg3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun3_B (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x64 .f32) (harg9 : arg9.IsWhole) (arg10 : Memref sig .tc .vmem S128x1 .f32) (harg10 : arg10.IsWhole) (hc0 : ¬cond3_0 i) (hc1 : ¬cond3_1 i)
    (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32) :
    Σ' (L7 : List (View.Piece (Elt F) S128x1 .f32)) (LS0 : List (View.Piece (Elt F) S128x64 .f32)), { LS1 : List (View.Piece (Elt F) S128x1 .f32) //
      ∀ (xi7 : Vec F S128x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨[], ?_, ?_, fun xi7 E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.Reg3RunC.lean ====
import proofs.«413861_j21509196218552_2_alg».proof.Proof.Reg3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun3_C (c : Dev nD) (i : grid3.Coords) (arg1 : Memref sig .tc .vmem S10000x64 .f32) (harg1 : arg1.IsWhole) (arg2 : Memref sig .tc .vmem S1x64 .f32) (harg2 : arg2.IsWhole) (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole) (arg9 : Memref sig .tc .vmem S128x64 .f32) (harg9 : arg9.IsWhole) (arg10 : Memref sig .tc .vmem S128x1 .f32) (harg10 : arg10.IsWhole) (hc0 : ¬cond3_0 i) (hc1 : cond3_1 i)
    (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32) :
    Σ' (L7 : List (View.Piece (Elt F) S128x1 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc3__pool_mlp_kernel_eq_skeleton]; unfold cc3__pool_mlp_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Hand

end
-- ==== Proof.Reg3.lean ====
import proofs.«413861_j21509196218552_2_alg».proof.Proof.Reg3RunA
import proofs.«413861_j21509196218552_2_alg».proof.Proof.Reg3RunB
import proofs.«413861_j21509196218552_2_alg».proof.Proof.Reg3RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces
variable (c : Dev nD) (i : grid3.Coords) (arg1 : Memref sig .tc .vmem S10000x64 .f32) (harg1 : arg1.IsWhole) (arg2 : Memref sig .tc .vmem S1x64 .f32) (harg2 : arg2.IsWhole)
  (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole)
  (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole)
  (arg9 : Memref sig .tc .vmem S128x64 .f32) (harg9 : arg9.IsWhole) (arg10 : Memref sig .tc .vmem S128x1 .f32) (harg10 : arg10.IsWhole)

section CaseA
variable (hc0 : cond3_0 i) (hc1 : ¬cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32)

def out3_A_7 : Vec F S128x1 .f32 :=
  VO3_7.read (Elt F) (VO3_7.writes (Elt F) VO3_7.junk (kernelRun3_A c i arg1 harg1 arg2 harg2 arg3 harg3 arg4 harg4 arg5 harg5 arg6 harg6 arg7 harg7 arg8 harg8 arg9 harg9 arg10 harg10 hc0 hc1 x0 x1 x2 x3 x4 x5 x6).1)

theorem scover3_A_0 (y : S128x64.Idx) : ∃ pc ∈ (kernelRun3_A c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL _ S128x64.size (by sl_kernel_rfl) y

def sout3_A_0 : Vec F S128x64 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 hc0 hc1 x0 x1 x2 x3 x4 x5 x6).2.1)

theorem scover3_A_1 (y : S128x1.Idx) : ∃ pc ∈ (kernelRun3_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL _ S128x1.size (by sl_kernel_rfl) y

def sout3_A_1 : Vec F S128x1 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 hc0 hc1 x0 x1 x2 x3 x4 x5 x6).2.2.1)

end CaseA

section CaseB
variable (hc0 : ¬cond3_0 i) (hc1 : ¬cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32)

def out3_B_7 : Vec F S128x1 .f32 :=
  VO3_7.read (Elt F) (VO3_7.writes (Elt F) VO3_7.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).1)

theorem scover3_B_0 (y : S128x64.Idx) : ∃ pc ∈ (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL _ S128x64.size (by sl_kernel_rfl) y

def sout3_B_0 : Vec F S128x64 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.1)

theorem scover3_B_1 (y : S128x1.Idx) : ∃ pc ∈ (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL _ S128x1.size (by sl_kernel_rfl) y

def sout3_B_1 : Vec F S128x1 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

end CaseB

section CaseC
variable (hc0 : ¬cond3_0 i) (hc1 : cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32)

theorem cover3_C_7 (y : S128x1.Idx) : ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).1, y ∈ pc.1.set :=
  View.cover_of_tiledL _ S128x1.size (by sl_kernel_rfl) y

def out3_C_7 : Vec F S128x1 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).1)

theorem scover3_C_0 (y : S128x64.Idx) : ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.1, y ∈ pc.1.set :=
  View.cover_of_tiledL _ S128x64.size (by sl_kernel_rfl) y

def sout3_C_0 : Vec F S128x64 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.1)

theorem scover3_C_1 (y : S128x1.Idx) : ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1, y ∈ pc.1.set :=
  View.cover_of_tiledL _ S128x1.size (by sl_kernel_rfl) y

def sout3_C_1 : Vec F S128x1 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1)

end CaseC

end Pieces

def ptA (c : Dev nD) (t : Fin cfg3.N) (h0 : t.val % 10 = 0) (h1 : ¬t.val % 10 = 9) : Vec F S128x1 .f32 × Vec F S128x64 .f32 × Vec F S128x1 .f32 :=
  (out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
    sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
    sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))

def ptB (c : Dev nD) (t : Fin cfg3.N) (h0 : ¬t.val % 10 = 0) (h1 : ¬t.val % 10 = 9) (xs0 : Vec F S128x64 .f32) (xs1 : Vec F S128x1 .f32) : Vec F S128x1 .f32 × Vec F S128x64 .f32 × Vec F S128x1 .f32 :=
  (out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
    sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
    sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1)

def ptC (c : Dev nD) (t : Fin cfg3.N) (h0 : ¬t.val % 10 = 0) (h1 : t.val % 10 = 9) (xs0 : Vec F S128x64 .f32) (xs1 : Vec F S128x1 .f32) : Vec F S128x1 .f32 × Vec F S128x64 .f32 × Vec F S128x1 .f32 :=
  (out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1)

-- the first point starts the two accumulators afresh; every later point works on what the point before left
def outsAt3 (c : Dev nD) : (n : ℕ) → n < cfg3.N → Vec F S128x1 .f32 × Vec F S128x64 .f32 × Vec F S128x1 .f32
  | 0, hn => ptA V c ⟨0, hn⟩ (Nat.zero_mod _) (by show ¬(0 : ℕ) % 10 = 9; decide)
  | n + 1, hn =>
    if h0 : (n + 1) % 10 = 0 then
      if h1 : (n + 1) % 10 = 9 then absurd (h0.symm.trans h1) (by decide)
      else ptA V c ⟨n + 1, hn⟩ h0 h1
    else
      if h1 : (n + 1) % 10 = 9 then ptC V c ⟨n + 1, hn⟩ h0 h1 (outsAt3 c n (Nat.lt_of_succ_lt hn)).2.1 (outsAt3 c n (Nat.lt_of_succ_lt hn)).2.2
      else ptB V c ⟨n + 1, hn⟩ h0 h1 (outsAt3 c n (Nat.lt_of_succ_lt hn)).2.1 (outsAt3 c n (Nat.lt_of_succ_lt hn)).2.2

theorem outsAt3_A (c : Dev nD) (t : Fin cfg3.N) (h0 : t.val % 10 = 0) (h1 : ¬t.val % 10 = 9) :
    outsAt3 V c t.val t.isLt = ptA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 10 = 0) (h1 : ¬t.val % 10 = 9) :
    outsAt3 V c t.val t.isLt = ptB V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 10 = 0) (h1 : t.val % 10 = 9) :
    outsAt3 V c t.val t.isLt = ptC V c t h0 h1 (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

def PhiS3 (c : Dev nD) : (n : ℕ) → n ≤ cfg3.N → sProp 𝕄
  | 0, _ => Pipeline.ΦA spec3 c
  | n + 1, hn => iprop(others3 c ∗ owns (c : Thread nD τ) scM3_0 fullShare ((outsAt3 V c n hn).2.1) ∗ owns (c : Thread nD τ) scM3_1 fullShare ((outsAt3 V c n hn).2.2) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(others3 c ∗ owns (c : Thread nD τ) scM3_0 fullShare ((outsAt3 V c n hn).2.1) ∗ owns (c : Thread nD τ) scM3_1 fullShare ((outsAt3 V c n hn).2.2) ∗ (∃ r, prngReg c r)) := rfl

theorem PhiS3_pos (c : Dev nD) (n : ℕ) (h : n ≤ cfg3.N) (hz : n ≠ 0) :
    PhiS3 V c n h = iprop(others3 c ∗ owns (c : Thread nD τ) scM3_0 fullShare ((outsAt3 V c (n - 1) (by omega)).2.1) ∗ owns (c : Thread nD τ) scM3_1 fullShare ((outsAt3 V c (n - 1) (by omega)).2.2) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  have hN : t.val < 10 := lt_of_lt_of_eq t.isLt (show cfg3.N = 10 from N_3)
  by_cases h0 : t.val % 10 = 0
  · by_cases h1 : t.val % 10 = 9
    · exfalso; omega
    · rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
      rw [outsAt3_A V c t h0 h1]
      unfold ptA sout3_A_0 sout3_A_1; (try dsimp only)
      by_cases hz : t.val = 0
      · rw [PhiS3_castSucc V c t, PhiS3_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦ' := (PhiA3_split c) $$ HΦ
        icases HΦ' with ⟨Hoth, HS0, HS1, Hg⟩
        iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_A_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; omega
  · by_cases h1 : t.val % 10 = 9
    · rw [show (dat3 V c).leavesExact 7 t = owns (c : Thread nD τ) (ms3_7 t) fullShare ((dat3 V c).after 7 t) from by
        unfold Dat.leavesExact; rw [liveAt3_7_C t (fun h => h0 ((hcond3_0 t).mp h)) ((hcond3_1 t).mpr h1)], after3_7]
      rw [outsAt3_C V c t h0 h1]
      unfold ptC out3_C_7 sout3_C_0 sout3_C_1; (try dsimp only)
      by_cases hz : t.val = 0
      · exfalso; omega
      · rw [PhiS3_castSucc V c t, PhiS3_pos V c _ _ hz]
        iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_C c (grid3.coords t) _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        iintro ⟨H0, H1, H2, H3, H4, H5, H6, ⟨%e7, H7⟩, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_C_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover3_C_7 c _ _ _ _ _ _ _ _ _ _ _ _ _ _ _ _ _ _ _ _ _ _ _ _ _ _ _ _ _ _ _ _)
    · rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [outsAt3_B V c t h0 h1]
      unfold ptB sout3_B_0 sout3_B_1; (try dsimp only)
      by_cases hz : t.val = 0
      · exfalso; omega
      · rw [PhiS3_castSucc V c t, PhiS3_pos V c _ _ hz]
        iintro ⟨⟨Hoth, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_B c (grid3.coords t) _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [Hoth HS0 HS1 Hg]
        · isplitl [Hoth]; · iexact Hoth
          isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  iintro ⟨Hoth, HS0, HS1, Hg⟩
  iapply (PhiA3_join c)
  isplitl [Hoth]; · iexact Hoth
  isplitl [HS0]; · iexists _; iexact HS0
  isplitl [HS1]; · iexists _; iexact HS1
  iexact Hg

theorem hout3 (c : Dev nD) : (dat3 V c).Φ (Fin.last cfg3.N) ⊢ Pipeline.ΦA spec3 c :=
  Phi_out3 V c _ (by rw [Fin.val_last]; have : cfg3.N = 10 := N_3; omega)

end Cert.KernelIdeal.Hand

end
-- ==== Proof.AsmDefs.lean ====
import proofs.«413861_j21509196218552_2_alg».proof.Proof.Reg0
import proofs.«413861_j21509196218552_2_alg».proof.Proof.Reg1
import proofs.«413861_j21509196218552_2_alg».proof.Proof.Reg2
import proofs.«413861_j21509196218552_2_alg».proof.Proof.Reg3
import proofs.«413861_j21509196218552_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev Y3 (c : Dev nD) : Valuation τ sig (Elt F) := Gen.V3 m c
abbrev E0 (c : Dev nD) (b : Ref sig .tc) : Buf (Elt F) ((c : Thread nD τ).loc b) := Y3 m c b

def X0 (c : Dev nD) : Valuation τ sig (Elt F) :=
  Pipeline.withArrays spec0 c (Y3 m c) fun w => (dat0 (E0 m) c).arrAt w cfg0.N

abbrev Y5 (c : Dev nD) : Valuation τ sig (Elt F) := StableHlo.after hostOps1 (Function.update (Y3 m c) main_v30 (X0 m c main_v30))
abbrev E1 (c : Dev nD) (b : Ref sig .tc) : Buf (Elt F) ((c : Thread nD τ).loc b) := Y5 m c b
def X1 (c : Dev nD) : Valuation τ sig (Elt F) :=
  Pipeline.withArrays spec1 c (Y5 m c) fun w => (dat1 (E1 m) c).arrAt w cfg1.N
abbrev Y7 (c : Dev nD) : Valuation τ sig (Elt F) := StableHlo.after hostOps2 (Function.update (Y5 m c) main_v45 (X1 m c main_v45))
abbrev E2 (c : Dev nD) (b : Ref sig .tc) : Buf (Elt F) ((c : Thread nD τ).loc b) := Y7 m c b
def X2 (c : Dev nD) : Valuation τ sig (Elt F) :=
  Pipeline.withArrays spec2 c (Y7 m c) fun w => (dat2 (E2 m) c).arrAt w cfg2.N
abbrev Y9 (c : Dev nD) : Valuation τ sig (Elt F) := StableHlo.after hostOps3 (Function.update (Y7 m c) main_v60 (X2 m c main_v60))
abbrev E3 (c : Dev nD) (b : Ref sig .tc) : Buf (Elt F) ((c : Thread nD τ).loc b) := Y9 m c b
def X3 (c : Dev nD) : Valuation τ sig (Elt F) :=
  Pipeline.withArrays spec3 c (Y9 m c) fun w => (dat3 (E3 m) c).arrAt w cfg3.N

def outs : Gen.Outs (F := F) := fun J r c =>
  match J with
  | 4 => X0 m c r
  | 6 => X1 m c r
  | 8 => X2 m c r
  | _ => X3 m c r

def pdats : (p : Fin 4) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
  | ⟨3, _⟩ => fun c => dat3 (E3 m) c

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)

end Cert.KernelIdeal.Hand

end
-- ==== Proof.Asm.lean ====
import proofs.«413861_j21509196218552_2_alg».proof.Proof.AsmDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem hF0 (c : Dev nD) : ∀ w : Fin cfg0.W, (pdats m 0 c).arrAt w cfg0.N = Gen.V4 m (outs m) c (Pipeline.arrRef spec0 w)
  | ⟨0, _⟩ => (((dat0 (E0 m) c).arrAt_in 0 rfl _).trans (A_eq0 (E0 m) c 0)).trans (Gen.V4_of m (outs m) c main_arg0 (by decide)).symm
  | ⟨1, _⟩ => (((dat0 (E0 m) c).arrAt_in 1 rfl _).trans (A_eq0 (E0 m) c 1)).trans (Gen.V4_of m (outs m) c main_arg3 (by decide)).symm
  | ⟨2, _⟩ => by
      have h : Gen.V4 m (outs m) c (Proc.devRef .tc main_v30) = X0 m c (Proc.devRef .tc main_v30) := Function.update_self _ _ _
      exact (Pipeline.withArrays_arr spec0 launch0.win.arr_inj c _ _ 2).symm.trans h.symm
theorem hrest0 (c : Dev nD) : ∀ b, b ∉ Finset.univ.image (Pipeline.arrRef spec0) → Gen.V4 m (outs m) c b = E0 m c b :=
  fun b hb => Gen.V4_of m (outs m) c b (fun h => hb (Finset.mem_image.mpr ⟨2, Finset.mem_univ _, (List.mem_singleton.mp h).symm⟩))

theorem hF1 (c : Dev nD) : ∀ w : Fin cfg1.W, (pdats m 1 c).arrAt w cfg1.N = Gen.V6 m (outs m) c (Pipeline.arrRef spec1 w)
  | ⟨0, _⟩ => (((dat1 (E1 m) c).arrAt_in 0 rfl _).trans (A_eq1 (E1 m) c 0)).trans (Gen.V6_of m (outs m) c main_v43 (by decide)).symm
  | ⟨1, _⟩ => (((dat1 (E1 m) c).arrAt_in 1 rfl _).trans (A_eq1 (E1 m) c 1)).trans (Gen.V6_of m (outs m) c main_v44 (by decide)).symm
  | ⟨2, _⟩ => (((dat1 (E1 m) c).arrAt_in 2 rfl _).trans (A_eq1 (E1 m) c 2)).trans (Gen.V6_of m (outs m) c main_arg5 (by decide)).symm
  | ⟨3, _⟩ => by
      have h : Gen.V6 m (outs m) c (Proc.devRef .tc main_v45) = X1 m c (Proc.devRef .tc main_v45) := Function.update_self _ _ _
      exact (Pipeline.withArrays_arr spec1 launch1.win.arr_inj c _ _ 3).symm.trans h.symm
theorem hrest1 (c : Dev nD) : ∀ b, b ∉ Finset.univ.image (Pipeline.arrRef spec1) → Gen.V6 m (outs m) c b = E1 m c b :=
  fun b hb => Gen.V6_of m (outs m) c b (fun h => hb (Finset.mem_image.mpr ⟨3, Finset.mem_univ _, (List.mem_singleton.mp h).symm⟩))

theorem hF2 (c : Dev nD) : ∀ w : Fin cfg2.W, (pdats m 2 c).arrAt w cfg2.N = Gen.V8 m (outs m) c (Pipeline.arrRef spec2 w)
  | ⟨0, _⟩ => (((dat2 (E2 m) c).arrAt_in 0 rfl _).trans (A_eq2 (E2 m) c 0)).trans (Gen.V8_of m (outs m) c main_v58 (by decide)).symm
  | ⟨1, _⟩ => (((dat2 (E2 m) c).arrAt_in 1 rfl _).trans (A_eq2 (E2 m) c 1)).trans (Gen.V8_of m (outs m) c main_v59 (by decide)).symm
  | ⟨2, _⟩ => (((dat2 (E2 m) c).arrAt_in 2 rfl _).trans (A_eq2 (E2 m) c 2)).trans (Gen.V8_of m (outs m) c main_arg7 (by decide)).symm
  | ⟨3, _⟩ => by
      have h : Gen.V8 m (outs m) c (Proc.devRef .tc main_v60) = X2 m c (Proc.devRef .tc main_v60) := Function.update_self _ _ _
      exact (Pipeline.withArrays_arr spec2 launch2.win.arr_inj c _ _ 3).symm.trans h.symm
theorem hrest2 (c : Dev nD) : ∀ b, b ∉ Finset.univ.image (Pipeline.arrRef spec2) → Gen.V8 m (outs m) c b = E2 m c b :=
  fun b hb => Gen.V8_of m (outs m) c b (fun h => hb (Finset.mem_image.mpr ⟨3, Finset.mem_univ _, (List.mem_singleton.mp h).symm⟩))

set_option maxHeartbeats 1000000 in
theorem hF3 (c : Dev nD) : ∀ w : Fin cfg3.W, (pdats m 3 c).arrAt w cfg3.N = Gen.V10 m (outs m) c (Pipeline.arrRef spec3 w)
  | ⟨0, _⟩ => (((dat3 (E3 m) c).arrAt_in 0 rfl _).trans (A_eq3 (E3 m) c 0)).trans (Gen.V10_of m (outs m) c main_v73 (by decide)).symm
  | ⟨1, _⟩ => (((dat3 (E3 m) c).arrAt_in 1 rfl _).trans (A_eq3 (E3 m) c 1)).trans (Gen.V10_of m (outs m) c main_v75 (by decide)).symm
  | ⟨2, _⟩ => (((dat3 (E3 m) c).arrAt_in 2 rfl _).trans (A_eq3 (E3 m) c 2)).trans (Gen.V10_of m (outs m) c main_v74 (by decide)).symm
  | ⟨3, _⟩ => (((dat3 (E3 m) c).arrAt_in 3 rfl _).trans (A_eq3 (E3 m) c 3)).trans (Gen.V10_of m (outs m) c main_arg9 (by decide)).symm
  | ⟨4, _⟩ => (((dat3 (E3 m) c).arrAt_in 4 rfl _).trans (A_eq3 (E3 m) c 4)).trans (Gen.V10_of m (outs m) c main_v76 (by decide)).symm
  | ⟨5, _⟩ => (((dat3 (E3 m) c).arrAt_in 5 rfl _).trans (A_eq3 (E3 m) c 5)).trans (Gen.V10_of m (outs m) c main_arg11 (by decide)).symm
  | ⟨6, _⟩ => (((dat3 (E3 m) c).arrAt_in 6 rfl _).trans (A_eq3 (E3 m) c 6)).trans (Gen.V10_of m (outs m) c main_v77 (by decide)).symm
  | ⟨7, _⟩ => by
      have h : Gen.V10 m (outs m) c (Proc.devRef .tc main_v78) = X3 m c (Proc.devRef .tc main_v78) := Function.update_self _ _ _
      exact (Pipeline.withArrays_arr spec3 launch3.win.arr_inj c _ _ 7).symm.trans h.symm
theorem hrest3 (c : Dev nD) : ∀ b, b ∉ Finset.univ.image (Pipeline.arrRef spec3) → Gen.V10 m (outs m) c b = E3 m c b :=
  fun b hb => Gen.V10_of m (outs m) c b (fun h => hb (Finset.mem_image.mpr ⟨7, Finset.mem_univ _, (List.mem_singleton.mp h).symm⟩))

-- the four regions differ only in their data, so one constructor serves them all
set_option backward.isDefEq.respectTransparency.types false in
def regOf (p : Fin 4) (lf : Pipeline.LaunchFacts (nD := nD) (τ := τ) cfgs p) (Vi Vo : Dev nD → Valuation τ sig (Elt F))
    (hb : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = Vi c (Pipeline.arrRef (cfgs p).spec w))
    (hF : ∀ c w, (pdats m p c).arrAt w (cfgs p).N = Vo c (Pipeline.arrRef (cfgs p).spec w))
    (hrest : ∀ c b, b ∉ Finset.univ.image (Pipeline.arrRef (cfgs p).spec) → Vo c b = Vi c b)
    (hΦ0 : ∀ c, Pipeline.ΦA (cfgs p).spec c ⊢ (pdats m p c).Φ 0)
    (hΦN : ∀ c, (pdats m p c).Φ (Fin.last _) ⊢ Pipeline.ΦA (cfgs p).spec c) :
    RegionSeg (pcfgs (F := F)) adm (pdats m) () defs₀ Variants.none Lz lvz p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lz lvz p howed
  pre c := iprop(StableHlo.held (c : Thread nD τ) (Pipeline.ucRefs τ sig) (Vi c) ∗ Rr c)
  post c := iprop(StableHlo.held (c : Thread nD τ) (Pipeline.ucRefs τ sig) (Vo c) ∗ Rr c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c, hrec c]
      icases HO with ⟨%W, HO⟩; iexists W; isplitr; · ipureintro; exact fun _ _ => Or.inl trivial
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    rw [Pipeline.ownSems0_none]
    refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (Y3 m) (Gen.V4 m (outs m)) (body_obligation0 (E0 m)) (fun _ _ => rfl) (fun _ _ => rfl) (fun _ _ => rfl)
  (fun _ _ => rfl) (hF0 m) (hrest0 m) (fun _ => .rfl) (fun _ => .rfl)
def reg1 := regOf m 1 launch1 (Y5 m) (Gen.V6 m (outs m)) (body_obligation1 (E1 m)) (fun _ _ => rfl) (fun _ _ => rfl) (fun _ _ => rfl)
  (fun _ _ => rfl) (hF1 m) (hrest1 m) (fun _ => .rfl) (fun _ => .rfl)
def reg2 := regOf m 2 launch2 (Y7 m) (Gen.V8 m (outs m)) (body_obligation2 (E2 m)) (fun _ _ => rfl) (fun _ _ => rfl) (fun _ _ => rfl)
  (fun _ _ => rfl) (hF2 m) (hrest2 m) (fun _ => .rfl) (fun _ => .rfl)
def reg3 := regOf m 3 launch3 (Y9 m) (Gen.V10 m (outs m)) (body_obligation3 (E3 m)) (fun _ _ => rfl) (fun _ _ => rfl) (fun _ _ => rfl)
  (fun _ _ => rfl) (hF3 m) (hrest3 m) (hin3 (E3 m)) (hout3 (E3 m))

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lz lvz)
      ⊢ (|={Set.univ}=> bigSep Finset.univ (fun c : Dev nD => Rr (F := F) c) : sProp 𝕄) := by
  have hcore : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) ⊢ Rr (F := F) c := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => Rr (F := F) c) : sProp 𝕄) := bigSep_mono fun c _ => hcore c
  iintro ⟨H, Hl⟩
  ihave H' := hmono $$ H
  imodintro
  iexact H'

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

end Cert.KernelIdeal.Hand

end
-- ==== Proof.AsmRun.lean ====
import proofs.«413861_j21509196218552_2_alg».proof.Proof.Asm
import proofs.«413861_j21509196218552_2_alg».proof.Proof.RunCondP

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in

theorem run (ρ : Dev nD → PrngReg) :
    θ_run defs (onTc (τ := τ) (main (F := F))) ⟨m, fun _ => 0, ρ⟩ (fun r => ∀ c : Dev nD,
      r.2.mem ((c.tc : Thread nD τ).loc main_v78) = Gen.V10 m (outs m) c main_v78
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Cert.KernelIdeal.GenP.run_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := launch_ghost)
    (E := fun _ c => Rr c) (hE0 := launch_rest ρ)
    (hE4 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (n k : Nat) : Type := (⟨2, ![n, k]⟩ : Shape).Idx → EReal

abbrev Lab (n : Nat) : Type := (⟨2, ![n, 1]⟩ : Shape).Idx → BitVec 32

def mm {n k p : Nat} (x : Mat n k) (w : Mat k p) : Mat n p :=
  fun i => ∑ j : Fin k, x (ix2 (i 0) j) * w (ix2 j (i 1))

def brelu {n k : Nat} (a : Mat n k) (b : Mat 1 k) : Mat n k :=
  fun i => max (a i + b (ix2 0 (i 1))) 0

def segSum {n k : Nat} (G : Nat) (lab : Lab n) (h : Mat n k) : Mat G k :=
  fun i => ∑ r : Fin n, if lab (ix2 r 0) = BitVec.ofNat 32 (i 0).val then h (ix2 r (i 1)) else 0

def segCount {n : Nat} (G : Nat) (lab : Lab n) : Mat G 1 :=
  fun i => ∑ r : Fin n, if lab (ix2 r 0) = BitVec.ofNat 32 (i 0).val then (1 : EReal) else 0

-- an empty graph's count is read as one, so its mean is zero
def meanOf {G k : Nat} (s : Mat G k) (cnt : Mat G 1) : Mat G k :=
  fun i => Ideal.div (s i) (max (cnt (ix2 (i 0) 0)) 1)

def head {G k d : Nat} (s : Mat G k) (cnt : Mat G 1) (w1 : Mat k d) (b1 : Mat 1 d) (w2 : Mat d 1) (b2 : Mat 1 1) : Mat G 1 :=
  fun i => mm (brelu (mm (meanOf s cnt) w1) b1) w2 i + b2 (ix2 0 (i 1))

def pool {n k d : Nat} (G : Nat) (lab : Lab n) (a : Mat n k) (b : Mat 1 k) (w1 : Mat k d) (b1 : Mat 1 d) (w2 : Mat d 1) (b2 : Mat 1 1) : Mat G 1 :=
  head (segSum G lab (brelu a b)) (segCount G lab) w1 b1 w2 b2

def rowOf {k : Nat} (b : (⟨1, ![k]⟩ : Shape).Idx → EReal) : Mat 1 k := fun i => b (ix1 (i 1))

def colOf {n : Nat} (l : (⟨1, ![n]⟩ : Shape).Idx → BitVec 32) : Lab n := fun i => l (ix1 (i 0))

def layer {n k p : Nat} (a : Mat n k) (b : Mat 1 k) (w : Mat k p) : Mat n p := mm (brelu a b) w

end Cert.Spec

end
-- ==== Proof.KHost.lean ====
import proofs.«413861_j21509196218552_2_alg».proof.Proof.AsmDefs
import proofs.«413861_j21509196218552_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe
open Idealize.SL.Sem
open Idealize.ShloMosaic.Pipeline (Dat)
open Cert.KernelIdeal Cert.KernelIdeal.Gen

variable {F : FTy → Type} [FloatOps F]

def aggK (src dst : Vec F S1700000 .i32) (norm : Vec F S1700000 .f32) (h : Vec F S100000x64 .f32) : Vec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x64 ![0, 1] bcast_S1700000x1_S1700000x64_0_1
        (broadcastInDim S1700000x1 ![0] bcast_S1700000_S1700000x1_0 norm)))

section Stretches
variable (W : Valuation τ sig (Elt F))

theorem hostOps1_v43 : StableHlo.after hostOps1 W (Proc.devRef .tc main_v43)
    = aggK (W (Proc.devRef .tc main_v3)) (W (Proc.devRef .tc main_v6)) (W (Proc.devRef .tc main_v29)) (W (Proc.devRef .tc main_v30)) := by
  after_results_simp; rfl
theorem hostOps1_v44 : StableHlo.after hostOps1 W (Proc.devRef .tc main_v44)
    = shapeCast S1x64 (W (Proc.devRef .tc main_arg4)) shapeCasts_S64_S1x64 := by
  after_results; rfl

theorem hostOps2_v58 : StableHlo.after hostOps2 W (Proc.devRef .tc main_v58)
    = aggK (W (Proc.devRef .tc main_v3)) (W (Proc.devRef .tc main_v6)) (W (Proc.devRef .tc main_v29)) (W (Proc.devRef .tc main_v45)) := by
  after_results_simp; rfl
theorem hostOps2_v59 : StableHlo.after hostOps2 W (Proc.devRef .tc main_v59)
    = shapeCast S1x64 (W (Proc.devRef .tc main_arg6)) shapeCasts_S64_S1x64 := by
  after_results; rfl

theorem hostOps3_v73 : StableHlo.after hostOps3 W (Proc.devRef .tc main_v73)
    = aggK (W (Proc.devRef .tc main_v3)) (W (Proc.devRef .tc main_v6)) (W (Proc.devRef .tc main_v29)) (W (Proc.devRef .tc main_v60)) := by
  after_results_simp; rfl
theorem hostOps3_v74 : StableHlo.after hostOps3 W (Proc.devRef .tc main_v74)
    = shapeCast S100000x1 (W (Proc.devRef .tc main_arg2)) shapeCasts_S100000_S100000x1 := by
  after_results; rfl
theorem hostOps3_v75 : StableHlo.after hostOps3 W (Proc.devRef .tc main_v75)
    = shapeCast S1x64 (W (Proc.devRef .tc main_arg8)) shapeCasts_S64_S1x64 := by
  after_results; rfl
theorem hostOps3_v76 : StableHlo.after hostOps3 W (Proc.devRef .tc main_v76)
    = shapeCast S1x128 (W (Proc.devRef .tc main_arg10)) shapeCasts_S128_S1x128 := by
  after_results; rfl
theorem hostOps3_v77 : StableHlo.after hostOps3 W (Proc.devRef .tc main_v77)
    = shapeCast S1x1 (W (Proc.devRef .tc main_arg12)) shapeCasts_S1_S1x1 := by
  after_results; rfl

end Stretches

section Steps
variable (Y : Valuation τ sig (Elt F))

theorem update_ne {a r : Ref sig .tc} (x : (Proc.devRef (τ := τ) .tc a).ty.Contents (Elt F)) (h : r ≠ a) :
    Function.update Y (Proc.devRef .tc a) x (Proc.devRef .tc r) = Y (Proc.devRef .tc r) :=
  Function.update_of_ne (StableHlo.devRef_ne_of_ne h) x Y

theorem keep1 (x) {r : Ref sig .tc} (h : r ∉ hostOps1_W) (h' : r ≠ main_v30) :
    StableHlo.after hostOps1 (Function.update Y (Proc.devRef .tc main_v30) x) (Proc.devRef .tc r) = Y (Proc.devRef .tc r) :=
  (StableHlo.after_of_writes_sub hostOps1 _ hostOps1_writes h).trans (update_ne Y x h')
theorem keep2 (x) {r : Ref sig .tc} (h : r ∉ hostOps2_W) (h' : r ≠ main_v45) :
    StableHlo.after hostOps2 (Function.update Y (Proc.devRef .tc main_v45) x) (Proc.devRef .tc r) = Y (Proc.devRef .tc r) :=
  (StableHlo.after_of_writes_sub hostOps2 _ hostOps2_writes h).trans (update_ne Y x h')
theorem keep3 (x) {r : Ref sig .tc} (h : r ∉ hostOps3_W) (h' : r ≠ main_v60) :
    StableHlo.after hostOps3 (Function.update Y (Proc.devRef .tc main_v60) x) (Proc.devRef .tc r) = Y (Proc.devRef .tc r) :=
  (StableHlo.after_of_writes_sub hostOps3 _ hostOps3_writes h).trans (update_ne Y x h')

theorem step1_v43 (x) : StableHlo.after hostOps1 (Function.update Y (Proc.devRef .tc main_v30) x) (Proc.devRef .tc main_v43)
    = aggK (Y (Proc.devRef .tc main_v3)) (Y (Proc.devRef .tc main_v6)) (Y (Proc.devRef .tc main_v29)) x := by
  rw [hostOps1_v43, Function.update_self, update_ne Y x (by decide : main_v3 ≠ main_v30), update_ne Y x (by decide : main_v6 ≠ main_v30),
    update_ne Y x (by decide : main_v29 ≠ main_v30)]
theorem step1_v44 (x) : StableHlo.after hostOps1 (Function.update Y (Proc.devRef .tc main_v30) x) (Proc.devRef .tc main_v44)
    = shapeCast S1x64 (Y (Proc.devRef .tc main_arg4)) shapeCasts_S64_S1x64 := by
  rw [hostOps1_v44, update_ne Y x (by decide : main_arg4 ≠ main_v30)]

theorem step2_v58 (x) : StableHlo.after hostOps2 (Function.update Y (Proc.devRef .tc main_v45) x) (Proc.devRef .tc main_v58)
    = aggK (Y (Proc.devRef .tc main_v3)) (Y (Proc.devRef .tc main_v6)) (Y (Proc.devRef .tc main_v29)) x := by
  rw [hostOps2_v58, Function.update_self, update_ne Y x (by decide : main_v3 ≠ main_v45), update_ne Y x (by decide : main_v6 ≠ main_v45),
    update_ne Y x (by decide : main_v29 ≠ main_v45)]
theorem step2_v59 (x) : StableHlo.after hostOps2 (Function.update Y (Proc.devRef .tc main_v45) x) (Proc.devRef .tc main_v59)
    = shapeCast S1x64 (Y (Proc.devRef .tc main_arg6)) shapeCasts_S64_S1x64 := by
  rw [hostOps2_v59, update_ne Y x (by decide : main_arg6 ≠ main_v45)]

theorem step3_v73 (x) : StableHlo.after hostOps3 (Function.update Y (Proc.devRef .tc main_v60) x) (Proc.devRef .tc main_v73)
    = aggK (Y (Proc.devRef .tc main_v3)) (Y (Proc.devRef .tc main_v6)) (Y (Proc.devRef .tc main_v29)) x := by
  rw [hostOps3_v73, Function.update_self, update_ne Y x (by decide : main_v3 ≠ main_v60), update_ne Y x (by decide : main_v6 ≠ main_v60),
    update_ne Y x (by decide : main_v29 ≠ main_v60)]
theorem step3_v74 (x) : StableHlo.after hostOps3 (Function.update Y (Proc.devRef .tc main_v60) x) (Proc.devRef .tc main_v74)
    = shapeCast S100000x1 (Y (Proc.devRef .tc main_arg2)) shapeCasts_S100000_S100000x1 := by
  rw [hostOps3_v74, update_ne Y x (by decide : main_arg2 ≠ main_v60)]
theorem step3_v75 (x) : StableHlo.after hostOps3 (Function.update Y (Proc.devRef .tc main_v60) x) (Proc.devRef .tc main_v75)
    = shapeCast S1x64 (Y (Proc.devRef .tc main_arg8)) shapeCasts_S64_S1x64 := by
  rw [hostOps3_v75, update_ne Y x (by decide : main_arg8 ≠ main_v60)]
theorem step3_v76 (x) : StableHlo.after hostOps3 (Function.update Y (Proc.devRef .tc main_v60) x) (Proc.devRef .tc main_v76)
    = shapeCast S1x128 (Y (Proc.devRef .tc main_arg10)) shapeCasts_S128_S1x128 := by
  rw [hostOps3_v76, update_ne Y x (by decide : main_arg10 ≠ main_v60)]
theorem step3_v77 (x) : StableHlo.after hostOps3 (Function.update Y (Proc.devRef .tc main_v60) x) (Proc.devRef .tc main_v77)
    = shapeCast S1x1 (Y (Proc.devRef .tc main_arg12)) shapeCasts_S1_S1x1 := by
  rw [hostOps3_v77, update_ne Y x (by decide : main_arg12 ≠ main_v60)]

end Steps

section Entries
variable (m : (ℓ : Loc nD τ sig) → Buf (Elt F) ℓ)

theorem Y3_arg {r : Ref sig .tc} (c : Dev nD) (h0 : r ∉ hostOps0_W) (h1 : r ∉ hostOps0_1_W) (h2 : r ∉ hostOps0_2_W) :
    Y3 m c r = m ((c : Thread nD τ).loc r) :=
  (Gen.V3_of m c r h2).trans <| (Gen.V2_of m c r h1).trans <| (Gen.V1_of m c r h0).trans rfl

theorem Y3_arg0 (c : Dev nD) : Y3 m c main_arg0 = m ((c : Thread nD τ).loc main_arg0) := Y3_arg m c (by decide) (by decide) (by decide)
theorem Y3_arg3 (c : Dev nD) : Y3 m c main_arg3 = m ((c : Thread nD τ).loc main_arg3) := Y3_arg m c (by decide) (by decide) (by decide)

theorem Y5_of {r : Ref sig .tc} (c : Dev nD) (h : r ∉ hostOps1_W) (h' : r ≠ main_v30) : Y5 m c r = Y3 m c r := keep1 _ _ h h'
theorem Y7_of {r : Ref sig .tc} (c : Dev nD) (h : r ∉ hostOps2_W) (h' : r ≠ main_v45) : Y7 m c r = Y5 m c r := keep2 _ _ h h'
theorem Y9_of {r : Ref sig .tc} (c : Dev nD) (h : r ∉ hostOps3_W) (h' : r ≠ main_v60) : Y9 m c r = Y7 m c r := keep3 _ _ h h'

theorem Y5_v43 (c : Dev nD) : Y5 m c main_v43 = aggK (Y3 m c main_v3) (Y3 m c main_v6) (Y3 m c main_v29) (X0 m c main_v30) := step1_v43 _ _
theorem Y5_v44 (c : Dev nD) : Y5 m c main_v44 = shapeCast S1x64 (m ((c : Thread nD τ).loc main_arg4)) shapeCasts_S64_S1x64 :=
  (step1_v44 _ _).trans (congrArg (fun b => shapeCast S1x64 b shapeCasts_S64_S1x64) (Y3_arg m c (by decide) (by decide) (by decide)))
theorem Y5_arg5 (c : Dev nD) : Y5 m c main_arg5 = m ((c : Thread nD τ).loc main_arg5) :=
  (Y5_of m c (by decide) (by decide)).trans (Y3_arg m c (by decide) (by decide) (by decide))

theorem Y7_v58 (c : Dev nD) : Y7 m c main_v58 = aggK (Y3 m c main_v3) (Y3 m c main_v6) (Y3 m c main_v29) (X1 m c main_v45) := by
  refine (step2_v58 _ _).trans ?_
  rw [show Y5 m c (Proc.devRef .tc main_v3) = Y3 m c main_v3 from Y5_of m c (by decide) (by decide),
    show Y5 m c (Proc.devRef .tc main_v6) = Y3 m c main_v6 from Y5_of m c (by decide) (by decide),
    show Y5 m c (Proc.devRef .tc main_v29) = Y3 m c main_v29 from Y5_of m c (by decide) (by decide)]
theorem Y7_v59 (c : Dev nD) : Y7 m c main_v59 = shapeCast S1x64 (m ((c : Thread nD τ).loc main_arg6)) shapeCasts_S64_S1x64 :=
  (step2_v59 _ _).trans (congrArg (fun b => shapeCast S1x64 b shapeCasts_S64_S1x64)
    ((Y5_of m c (by decide) (by decide)).trans (Y3_arg m c (by decide) (by decide) (by decide))))
theorem Y7_arg7 (c : Dev nD) : Y7 m c main_arg7 = m ((c : Thread nD τ).loc main_arg7) :=
  (Y7_of m c (by decide) (by decide)).trans <| (Y5_of m c (by decide) (by decide)).trans (Y3_arg m c (by decide) (by decide) (by decide))

theorem Y9_arg {r : Ref sig .tc} (c : Dev nD) (h0 : r ∉ hostOps0_W) (h1 : r ∉ hostOps0_1_W) (h2 : r ∉ hostOps0_2_W)
    (h3 : r ∉ hostOps1_W) (h3' : r ≠ main_v30) (h4 : r ∉ hostOps2_W) (h4' : r ≠ main_v45) (h5 : r ∉ hostOps3_W) (h5' : r ≠ main_v60) :
    Y9 m c r = m ((c : Thread nD τ).loc r) :=
  (Y9_of m c h5 h5').trans <| (Y7_of m c h4 h4').trans <| (Y5_of m c h3 h3').trans (Y3_arg m c h0 h1 h2)

theorem Y7_arg {r : Ref sig .tc} (c : Dev nD) (h0 : r ∉ hostOps0_W) (h1 : r ∉ hostOps0_1_W) (h2 : r ∉ hostOps0_2_W)
    (h3 : r ∉ hostOps1_W) (h3' : r ≠ main_v30) (h4 : r ∉ hostOps2_W) (h4' : r ≠ main_v45) :
    Y7 m c r = m ((c : Thread nD τ).loc r) :=
  (Y7_of m c h4 h4').trans <| (Y5_of m c h3 h3').trans (Y3_arg m c h0 h1 h2)

theorem Y9_v73 (c : Dev nD) : Y9 m c main_v73 = aggK (Y3 m c main_v3) (Y3 m c main_v6) (Y3 m c main_v29) (X2 m c main_v60) := by
  refine (step3_v73 _ _).trans ?_
  rw [show Y7 m c (Proc.devRef .tc main_v3) = Y3 m c main_v3 from (Y7_of m c (by decide) (by decide)).trans (Y5_of m c (by decide) (by decide)),
    show Y7 m c (Proc.devRef .tc main_v6) = Y3 m c main_v6 from (Y7_of m c (by decide) (by decide)).trans (Y5_of m c (by decide) (by decide)),
    show Y7 m c (Proc.devRef .tc main_v29) = Y3 m c main_v29 from (Y7_of m c (by decide) (by decide)).trans (Y5_of m c (by decide) (by decide))]
theorem Y9_v74 (c : Dev nD) : Y9 m c main_v74 = shapeCast S100000x1 (m ((c : Thread nD τ).loc main_arg2)) shapeCasts_S100000_S100000x1 :=
  (step3_v74 _ _).trans (congrArg (fun b => shapeCast S100000x1 b shapeCasts_S100000_S100000x1)
    (Y7_arg m c (by decide) (by decide) (by decide) (by decide) (by decide) (by decide) (by decide)))
theorem Y9_v75 (c : Dev nD) : Y9 m c main_v75 = shapeCast S1x64 (m ((c : Thread nD τ).loc main_arg8)) shapeCasts_S64_S1x64 :=
  (step3_v75 _ _).trans (congrArg (fun b => shapeCast S1x64 b shapeCasts_S64_S1x64)
    (Y7_arg m c (by decide) (by decide) (by decide) (by decide) (by decide) (by decide) (by decide)))
theorem Y9_v76 (c : Dev nD) : Y9 m c main_v76 = shapeCast S1x128 (m ((c : Thread nD τ).loc main_arg10)) shapeCasts_S128_S1x128 :=
  (step3_v76 _ _).trans (congrArg (fun b => shapeCast S1x128 b shapeCasts_S128_S1x128)
    (Y7_arg m c (by decide) (by decide) (by decide) (by decide) (by decide) (by decide) (by decide)))
theorem Y9_v77 (c : Dev nD) : Y9 m c main_v77 = shapeCast S1x1 (m ((c : Thread nD τ).loc main_arg12)) shapeCasts_S1_S1x1 :=
  (step3_v77 _ _).trans (congrArg (fun b => shapeCast S1x1 b shapeCasts_S1_S1x1)
    (Y7_arg m c (by decide) (by decide) (by decide) (by decide) (by decide) (by decide) (by decide)))
theorem Y9_arg9 (c : Dev nD) : Y9 m c main_arg9 = m ((c : Thread nD τ).loc main_arg9) :=
  Y9_arg m c (by decide) (by decide) (by decide) (by decide) (by decide) (by decide) (by decide) (by decide) (by decide)
theorem Y9_arg11 (c : Dev nD) : Y9 m c main_arg11 = m ((c : Thread nD τ).loc main_arg11) :=
  Y9_arg m c (by decide) (by decide) (by decide) (by decide) (by decide) (by decide) (by decide) (by decide) (by decide)

end Entries

section Views
open Idealize.ShloMosaic.ValueIdx

theorem shapeCast_rowOf {k : ℕ} (b : (⟨1, ![k]⟩ : Shape).Idx → EReal) (h : (⟨1, ![k]⟩ : Shape).ShapeCasts ⟨2, ![1, k]⟩) :
    shapeCast ⟨2, ![1, k]⟩ b h = Cert.Spec.rowOf b := by
  funext i
  obtain ⟨u, j, rfl⟩ : ∃ (u : Fin 1) (j : Fin k), i = ix2 u j := ⟨i 0, i 1, eq_ix2 i⟩
  exact shapeCast_a_1a_apply b h u j

theorem shapeCast_a_a1_apply {α : Type} {n : ℕ} (l : (⟨1, ![n]⟩ : Shape).Idx → α) (h : (⟨1, ![n]⟩ : Shape).ShapeCasts ⟨2, ![n, 1]⟩)
    (r : Fin n) (u : Fin 1) : shapeCast ⟨2, ![n, 1]⟩ l h (ix2 r u) = l (ix1 r) :=
  shapeCast_apply l h _ _ (by
    have hu : u.val = 0 := by omega
    rw [Shape.rowMajor_val_two, Shape.rowMajor_val_one]
    show r.val = r.val * 1 + u.val
    omega)

theorem shapeCast_colOf {n : ℕ} (l : (⟨1, ![n]⟩ : Shape).Idx → BitVec 32) (h : (⟨1, ![n]⟩ : Shape).ShapeCasts ⟨2, ![n, 1]⟩) :
    shapeCast ⟨2, ![n, 1]⟩ l h = Cert.Spec.colOf l := by
  funext i
  obtain ⟨r, u, rfl⟩ : ∃ (r : Fin n) (u : Fin 1), i = ix2 r u := ⟨i 0, i 1, eq_ix2 i⟩
  exact shapeCast_a_a1_apply l h r u

theorem rowOf_S64 (b : Vec Ideal S64 .f32) : shapeCast S1x64 b shapeCasts_S64_S1x64 = Cert.Spec.rowOf (k := 64) b := shapeCast_rowOf b _
theorem rowOf_S128 (b : Vec Ideal S128 .f32) : shapeCast S1x128 b shapeCasts_S128_S1x128 = Cert.Spec.rowOf (k := 128) b := shapeCast_rowOf b _
theorem rowOf_S1 (b : Vec Ideal S1 .f32) : shapeCast S1x1 b shapeCasts_S1_S1x1 = Cert.Spec.rowOf (k := 1) b := shapeCast_rowOf b _
theorem colOf_S100000 (l : Vec Ideal S100000 .i32) : shapeCast S100000x1 l shapeCasts_S100000_S100000x1 = Cert.Spec.colOf (n := 100000) l := shapeCast_colOf l _

end Views

end Cert.KernelIdeal.Hand

end
-- ==== Proof.RefReadP.lean ====
import proofs.«413861_j21509196218552_2_alg».proof.Proof.RefRunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S100000x3, .f32⟩ : BufTy).Contents (Elt F))
  (x1 : (⟨S2x1600000, .i32⟩ : BufTy).Contents (Elt F))
  (x2 : (⟨S100000, .i32⟩ : BufTy).Contents (Elt F))
  (x3 : (⟨S3x64, .f32⟩ : BufTy).Contents (Elt F))
  (x4 : (⟨S64, .f32⟩ : BufTy).Contents (Elt F))
  (x5 : (⟨S64x64, .f32⟩ : BufTy).Contents (Elt F))
  (x6 : (⟨S64, .f32⟩ : BufTy).Contents (Elt F))
  (x7 : (⟨S64x64, .f32⟩ : BufTy).Contents (Elt F))
  (x8 : (⟨S64, .f32⟩ : BufTy).Contents (Elt F))
  (x9 : (⟨S64x128, .f32⟩ : BufTy).Contents (Elt F))
  (x10 : (⟨S128, .f32⟩ : BufTy).Contents (Elt F))
  (x11 : (⟨S128x1, .f32⟩ : BufTy).Contents (Elt F))
  (x12 : (⟨S1, .f32⟩ : BufTy).Contents (Elt F))

def val_main_v0 : (⟨S100000, .i32⟩ : BufTy).Contents (Elt F) :=
  iotaInDim S100000 32 0
def val_main_v1 : (⟨S1x1600000, .i32⟩ : BufTy).Contents (Elt F) :=
  extractStridedSlice S1x1600000 ![0, 0] (x1) slices_S2x1600000_S1x1600000_0_0
def val_main_v2 : (⟨S1600000, .i32⟩ : BufTy).Contents (Elt F) :=
  shapeCast _ (val_main_v1 (F := F) x1) shapeCasts_S1x1600000_S1600000
def val_main_v3 : (⟨S1700000, .i32⟩ : BufTy).Contents (Elt F) :=
  concatenate S1700000 0 [⟨S1600000, (val_main_v2 (F := F) x1)⟩, ⟨S100000, (val_main_v0 (F := F))⟩] concatenates_S1600000_S100000_S1700000_d0

def val_main_v4 : (⟨S1x1600000, .i32⟩ : BufTy).Contents (Elt F) :=
  extractStridedSlice S1x1600000 ![1, 0] (x1) slices_S2x1600000_S1x1600000_1_0
def val_main_v5 : (⟨S1600000, .i32⟩ : BufTy).Contents (Elt F) :=
  shapeCast _ (val_main_v4 (F := F) x1) shapeCasts_S1x1600000_S1600000
def val_main_v6 : (⟨S1700000, .i32⟩ : BufTy).Contents (Elt F) :=
  concatenate S1700000 0 [⟨S1600000, (val_main_v5 (F := F) x1)⟩, ⟨S100000, (val_main_v0 (F := F))⟩] concatenates_S1600000_S100000_S1700000_d0

def val_main_cst : (⟨S_, .f32⟩ : BufTy).Contents (Elt F) :=
  constant S_ .f32 0x3F800000#32
def val_main_v7 : (⟨S1700000, .f32⟩ : BufTy).Contents (Elt F) :=
  broadcastInDim S1700000 ![] bcast_S_S1700000 (val_main_cst (F := F))
def val_main_cst_0 : (⟨S_, .f32⟩ : BufTy).Contents (Elt F) :=
  constant S_ .f32 0x00000000#32
def val_main_v8 : (⟨S100000, .f32⟩ : BufTy).Contents (Elt F) :=
  broadcastInDim S100000 ![] bcast_S_S100000 (val_main_cst_0 (F := F))
def val_main_v9 : (⟨S1700000x1, .i32⟩ : BufTy).Contents (Elt F) :=
  broadcastInDim S1700000x1 ![0] bcast_S1700000_S1700000x1_0 (val_main_v6 (F := F) x1)
def val_main_v10 : (⟨S100000, .f32⟩ : BufTy).Contents (Elt F) :=
  Host.scatterAdd scatter_S100000_S1700000x1_S1700000_n_0_0_1 (val_main_v8 (F := F)) (val_main_v9 (F := F) x1) (val_main_v7 (F := F))

def val_main_cst_1 : (⟨S_, .f32⟩ : BufTy).Contents (Elt F) :=
  constant S_ .f32 0x00000000#32
def val_main_v11 : (⟨S100000, .f32⟩ : BufTy).Contents (Elt F) :=
  broadcastInDim S100000 ![] bcast_S_S100000 (val_main_cst_1 (F := F))
def val_main_v12 : (⟨S100000, .i1⟩ : BufTy).Contents (Elt F) :=
  cmpf .ogt (val_main_v10 (F := F) x1) (val_main_v11 (F := F))
def val_main_v13 : (⟨S100000, .f32⟩ : BufTy).Contents (Elt F) :=
  Host.rsqrt (val_main_v10 (F := F) x1)
def val_main_cst_2 : (⟨S_, .f32⟩ : BufTy).Contents (Elt F) :=
  constant S_ .f32 0x00000000#32
def val_main_call0_v0 : (⟨S_, .f32⟩ : BufTy).Contents (Elt F) :=
  id (val_main_cst_2 (F := F))
def val_main_call0_v1 : (⟨S100000, .f32⟩ : BufTy).Contents (Elt F) :=
  broadcastInDim S100000 ![] bcast_S_S100000 (val_main_call0_v0 (F := F))
def val_main_v14 : (⟨S100000, .f32⟩ : BufTy).Contents (Elt F) :=
  select (val_main_v12 (F := F) x1) (val_main_v13 (F := F) x1) (val_main_call0_v1 (F := F))
def val_main_c : (⟨S_, .i32⟩ : BufTy).Contents (Elt F) :=
  constantI S_ 32 0#32
def val_main_v15 : (⟨S1700000, .i32⟩ : BufTy).Contents (Elt F) :=
  broadcastInDim S1700000 ![] bcast_S_S1700000 (val_main_c (F := F))
def val_main_v16 : (⟨S1700000, .i1⟩ : BufTy).Contents (Elt F) :=
  cmpi .slt (val_main_v3 (F := F) x1) (val_main_v15 (F := F))
def val_main_c_3 : (⟨S_, .i32⟩ : BufTy).Contents (Elt F) :=
  constantI S_ 32 100000#32
def val_main_v17 : (⟨S1700000, .i32⟩ : BufTy).Contents (Elt F) :=
  broadcastInDim S1700000 ![] bcast_S_S1700000 (val_main_c_3 (F := F))
def val_main_v18 : (⟨S1700000, .i32⟩ : BufTy).Contents (Elt F) :=
  addi (val_main_v3 (F := F) x1) (val_main_v17 (F := F))
def val_main_v19 : (⟨S1700000, .i32⟩ : BufTy).Contents (Elt F) :=
  select (val_main_v16 (F := F) x1) (val_main_v18 (F := F) x1) (val_main_v3 (F := F) x1)
def val_main_v20 : (⟨S1700000x1, .i32⟩ : BufTy).Contents (Elt F) :=
  broadcastInDim S1700000x1 ![0] bcast_S1700000_S1700000x1_0 (val_main_v19 (F := F) x1)
def val_main_v21 : (⟨S1700000, .f32⟩ : BufTy).Contents (Elt F) :=
  Host.gather gather_S100000_S1700000x1_S1700000_n_0_n_n_0_1_1 (val_main_v14 (F := F) x1) (val_main_v20 (F := F) x1)

def val_main_c_4 : (⟨S_, .i32⟩ : BufTy).Contents (Elt F) :=
  constantI S_ 32 0#32
def val_main_v22 : (⟨S1700000, .i32⟩ : BufTy).Contents (Elt F) :=
  broadcastInDim S1700000 ![] bcast_S_S1700000 (val_main_c_4 (F := F))
def val_main_v23 : (⟨S1700000, .i1⟩ : BufTy).Contents (Elt F) :=
  cmpi .slt (val_main_v6 (F := F) x1) (val_main_v22 (F := F))
def val_main_c_5 : (⟨S_, .i32⟩ : BufTy).Contents (Elt F) :=
  constantI S_ 32 100000#32
def val_main_v24 : (⟨S1700000, .i32⟩ : BufTy).Contents (Elt F) :=
  broadcastInDim S1700000 ![] bcast_S_S1700000 (val_main_c_5 (F := F))
def val_main_v25 : (⟨S1700000, .i32⟩ : BufTy).Contents (Elt F) :=
  addi (val_main_v6 (F := F) x1) (val_main_v24 (F := F))
def val_main_v26 : (⟨S1700000, .i32⟩ : BufTy).Contents (Elt F) :=
  select (val_main_v23 (F := F) x1) (val_main_v25 (F := F) x1) (val_main_v6 (F := F) x1)
def val_main_v27 : (⟨S1700000x1, .i32⟩ : BufTy).Contents (Elt F) :=
  broadcastInDim S1700000x1 ![0] bcast_S1700000_S1700000x1_0 (val_main_v26 (F := F) x1)
def val_main_v28 : (⟨S1700000, .f32⟩ : BufTy).Contents (Elt F) :=
  Host.gather gather_S100000_S1700000x1_S1700000_n_0_n_n_0_1_1 (val_main_v14 (F := F) x1) (val_main_v27 (F := F) x1)

def val_main_v29 : (⟨S1700000, .f32⟩ : BufTy).Contents (Elt F) :=
  mulf (val_main_v21 (F := F) x1) (val_main_v28 (F := F) x1)
def val_main_v30 : (⟨S100000x64, .f32⟩ : BufTy).Contents (Elt F) :=
  Host.dotGeneral dot_S100000x3_S3x64_S100000x64_1_0_0_1_n_n none (x0) (x3)
theorem lhs_main_v30_0 (i : S100000x64.Idx) (q : dot_S100000x3_S3x64_S100000x64_1_0_0_1_n_n.contr.Idx) :
    (dot_S100000x3_S3x64_S100000x64_1_0_0_1_n_n.lhsIdx i q 0).val = (i 0).val := by
  unfold DotDims.lhsIdx
  rw [dif_neg (show ¬(0 : Fin S100000x3.rank) ∈ dot_S100000x3_S3x64_S100000x64_1_0_0_1_n_n.lhsBatch by decide), dif_pos (show (0 : Fin S100000x3.rank) ∈ dot_S100000x3_S3x64_S100000x64_1_0_0_1_n_n.lhsNonContracting by decide)]
  rfl
theorem lhs_main_v30_1 (i : S100000x64.Idx) (q : dot_S100000x3_S3x64_S100000x64_1_0_0_1_n_n.contr.Idx) :
    (dot_S100000x3_S3x64_S100000x64_1_0_0_1_n_n.lhsIdx i q 1).val = (q ⟨0, by decide⟩).val :=
  dot_S100000x3_S3x64_S100000x64_1_0_0_1_n_n.lhsIdx_val_of_single rfl i q
theorem rhs_main_v30_0 (i : S100000x64.Idx) (q : dot_S100000x3_S3x64_S100000x64_1_0_0_1_n_n.contr.Idx) :
    (dot_S100000x3_S3x64_S100000x64_1_0_0_1_n_n.rhsIdx i q 0).val = (q ⟨0, by decide⟩).val :=
  dot_S100000x3_S3x64_S100000x64_1_0_0_1_n_n.rhsIdx_val_of_single rfl i q
theorem rhs_main_v30_1 (i : S100000x64.Idx) (q : dot_S100000x3_S3x64_S100000x64_1_0_0_1_n_n.contr.Idx) :
    (dot_S100000x3_S3x64_S100000x64_1_0_0_1_n_n.rhsIdx i q 1).val = (i 1).val := by
  unfold DotDims.rhsIdx
  rw [dif_neg (show ¬(1 : Fin S3x64.rank) ∈ dot_S100000x3_S3x64_S100000x64_1_0_0_1_n_n.rhsBatch by decide), dif_pos (show (1 : Fin S3x64.rank) ∈ dot_S100000x3_S3x64_S100000x64_1_0_0_1_n_n.rhsNonContracting by decide)]
  rfl
abbrev lidx_main_v30 (i : S100000x64.Idx) (k : Fin 3) : S100000x3.Idx := fun a => match a with
  | ⟨0, _⟩ => ⟨(i 0).val, (i 0).isLt⟩
  | ⟨1, _⟩ => ⟨k.val, k.isLt⟩
abbrev ridx_main_v30 (i : S100000x64.Idx) (k : Fin 3) : S3x64.Idx := fun a => match a with
  | ⟨0, _⟩ => ⟨k.val, k.isLt⟩
  | ⟨1, _⟩ => ⟨(i 1).val, (i 1).isLt⟩

theorem val_main_v30_apply (x0 : (⟨S100000x3, .f32⟩ : BufTy).Contents (Elt Ideal)) (x3 : (⟨S3x64, .f32⟩ : BufTy).Contents (Elt Ideal)) (i : S100000x64.Idx) :
    val_main_v30 (F := Ideal) x0 x3 i = ∑ k : Fin 3, x0 (lidx_main_v30 i k) * x3 (ridx_main_v30 i k) := by
  unfold val_main_v30
  simp only [Host.dotGeneral]
  rw [Ideal.dotGeneral_apply, ← Equiv.sum_comp (ValueIdx.contrEquiv1 dot_S100000x3_S3x64_S100000x64_1_0_0_1_n_n 3 rfl rfl).symm]
  refine Finset.sum_congr rfl fun k _ => ?_
  have hk := ValueIdx.contrEquiv1_symm_val dot_S100000x3_S3x64_S100000x64_1_0_0_1_n_n 3 rfl rfl k
  have el : dot_S100000x3_S3x64_S100000x64_1_0_0_1_n_n.lhsIdx i ((ValueIdx.contrEquiv1 dot_S100000x3_S3x64_S100000x64_1_0_0_1_n_n 3 rfl rfl).symm k) = lidx_main_v30 i k := funext fun a => Fin.ext (by
    match a with
    | ⟨0, _⟩ => exact lhs_main_v30_0 _ _
    | ⟨1, _⟩ => exact (lhs_main_v30_1 _ _).trans hk)
  have er : dot_S100000x3_S3x64_S100000x64_1_0_0_1_n_n.rhsIdx i ((ValueIdx.contrEquiv1 dot_S100000x3_S3x64_S100000x64_1_0_0_1_n_n 3 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_c_6 : (⟨S_, .i32⟩ : BufTy).Contents (Elt F) :=
  constantI S_ 32 0#32
def val_main_v31 : (⟨S1700000, .i32⟩ : BufTy).Contents (Elt F) :=
  broadcastInDim S1700000 ![] bcast_S_S1700000 (val_main_c_6 (F := F))
def val_main_v32 : (⟨S1700000, .i1⟩ : BufTy).Contents (Elt F) :=
  cmpi .slt (val_main_v3 (F := F) x1) (val_main_v31 (F := F))
def val_main_c_7 : (⟨S_, .i32⟩ : BufTy).Contents (Elt F) :=
  constantI S_ 32 100000#32
def val_main_v33 : (⟨S1700000, .i32⟩ : BufTy).Contents (Elt F) :=
  broadcastInDim S1700000 ![] bcast_S_S1700000 (val_main_c_7 (F := F))
def val_main_v34 : (⟨S1700000, .i32⟩ : BufTy).Contents (Elt F) :=
  addi (val_main_v3 (F := F) x1) (val_main_v33 (F := F))
def val_main_v35 : (⟨S1700000, .i32⟩ : BufTy).Contents (Elt F) :=
  select (val_main_v32 (F := F) x1) (val_main_v34 (F := F) x1) (val_main_v3 (F := F) x1)
def val_main_v36 : (⟨S1700000x1, .i32⟩ : BufTy).Contents (Elt F) :=
  broadcastInDim S1700000x1 ![0] bcast_S1700000_S1700000x1_0 (val_main_v35 (F := F) x1)
def val_main_v37 : (⟨S1700000x64, .f32⟩ : BufTy).Contents (Elt F) :=
  Host.gather gather_S100000x64_S1700000x1_S1700000x64_1_0_n_n_0_1_164 (val_main_v30 (F := F) x0 x3) (val_main_v36 (F := F) x1)

def val_main_v38 : (⟨S1700000x1, .f32⟩ : BufTy).Contents (Elt F) :=
  broadcastInDim S1700000x1 ![0] bcast_S1700000_S1700000x1_0 (val_main_v29 (F := F) x1)
def val_main_v39 : (⟨S1700000x64, .f32⟩ : BufTy).Contents (Elt F) :=
  broadcastInDim S1700000x64 ![0, 1] bcast_S1700000x1_S1700000x64_0_1 (val_main_v38 (F := F) x1)
def val_main_v40 : (⟨S1700000x64, .f32⟩ : BufTy).Contents (Elt F) :=
  mulf (val_main_v37 (F := F) x0 x1 x3) (val_main_v39 (F := F) x1)
def val_main_cst_8 : (⟨S_, .f32⟩ : BufTy).Contents (Elt F) :=
  constant S_ .f32 0x00000000#32
def val_main_v41 : (⟨S100000x64, .f32⟩ : BufTy).Contents (Elt F) :=
  broadcastInDim S100000x64 ![] bcast_S_S100000x64 (val_main_cst_8 (F := F))
def val_main_v42 : (⟨S1700000x1, .i32⟩ : BufTy).Contents (Elt F) :=
  broadcastInDim S1700000x1 ![0] bcast_S1700000_S1700000x1_0 (val_main_v6 (F := F) x1)
def val_main_v43 : (⟨S100000x64, .f32⟩ : BufTy).Contents (Elt F) :=
  Host.scatterAdd scatter_S100000x64_S1700000x1_S1700000x64_1_0_0_1 (val_main_v41 (F := F)) (val_main_v42 (F := F) x1) (val_main_v40 (F := F) x0 x1 x3)

def val_main_v44 : (⟨S1x64, .f32⟩ : BufTy).Contents (Elt F) :=
  broadcastInDim S1x64 ![1] bcast_S64_S1x64_1 (x4)
abbrev idx_main_v44 (i : S1x64.Idx) : S64.Idx := fun a => match a with
  | ⟨0, _⟩ => ⟨(i 1).val, (i 1).isLt⟩
theorem val_main_v44_apply (i : S1x64.Idx) :
    val_main_v44 (F := F) x4 i = x4 (idx_main_v44 i) := by
  unfold val_main_v44
  exact broadcastInDim_apply _ bcast_S64_S1x64_1 x4 i (idx_main_v44 i) (fun a => match a with
    | ⟨0, _⟩ => by show (i 1).val = if (64 : Nat) = 1 then 0 else (i 1).val; rw [if_neg (by decide)])

def val_main_v45 : (⟨S100000x64, .f32⟩ : BufTy).Contents (Elt F) :=
  broadcastInDim S100000x64 ![0, 1] bcast_S1x64_S100000x64_0_1 (val_main_v44 (F := F) x4)
abbrev idx_main_v45 (i : S100000x64.Idx) : S1x64.Idx := fun a => match a with
  | ⟨0, _⟩ => ⟨0, Nat.one_pos⟩
  | ⟨1, _⟩ => ⟨(i 1).val, (i 1).isLt⟩
theorem val_main_v45_apply (i : S100000x64.Idx) :
    val_main_v45 (F := F) x4 i = val_main_v44 (F := F) x4 (idx_main_v45 i) := by
  unfold val_main_v45
  generalize val_main_v44 (F := F) x4 = y
  exact broadcastInDim_apply _ bcast_S1x64_S100000x64_0_1 y i (idx_main_v45 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v46 : (⟨S100000x64, .f32⟩ : BufTy).Contents (Elt F) :=
  addf (val_main_v43 (F := F) x0 x1 x3) (val_main_v45 (F := F) x4)
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S100000x64, .f32⟩ : BufTy).Contents (Elt F) :=
  broadcastInDim S100000x64 ![] bcast_S_S100000x64 (val_main_call1_cst (F := F))
abbrev idx_main_call1_v0 (i : S100000x64.Idx) : S_.Idx := fun a => a.elim0
theorem val_main_call1_v0_apply (i : S100000x64.Idx) :
    val_main_call1_v0 (F := F) i = val_main_call1_cst (F := F) (idx_main_call1_v0 i) := by
  unfold val_main_call1_v0
  generalize val_main_call1_cst (F := F) = y
  exact broadcastInDim_apply _ bcast_S_S100000x64 y i (idx_main_call1_v0 i) (fun a => a.elim0)

def val_main_v47 : (⟨S100000x64, .f32⟩ : BufTy).Contents (Elt F) :=
  maximumf (val_main_v46 (F := F) x0 x1 x3 x4) (val_main_call1_v0 (F := F))
def val_main_v48 : (⟨S100000x64, .f32⟩ : BufTy).Contents (Elt F) :=
  Host.dotGeneral dot_S100000x64_S64x64_S100000x64_1_0_0_1_n_n none (val_main_v47 (F := F) x0 x1 x3 x4) (x5)
theorem lhs_main_v48_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_main_v48_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_main_v48_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_main_v48_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
abbrev lidx_main_v48 (i : S100000x64.Idx) (k : Fin 64) : S100000x64.Idx := fun a => match a with
  | ⟨0, _⟩ => ⟨(i 0).val, (i 0).isLt⟩
  | ⟨1, _⟩ => ⟨k.val, k.isLt⟩
abbrev ridx_main_v48 (i : S100000x64.Idx) (k : Fin 64) : S64x64.Idx := fun a => match a with
  | ⟨0, _⟩ => ⟨k.val, k.isLt⟩
  | ⟨1, _⟩ => ⟨(i 1).val, (i 1).isLt⟩

def dot64 (l : (⟨S100000x64, .f32⟩ : BufTy).Contents (Elt F)) (r : (⟨S64x64, .f32⟩ : BufTy).Contents (Elt F)) : (⟨S100000x64, .f32⟩ : BufTy).Contents (Elt F) :=
  Host.dotGeneral dot_S100000x64_S64x64_S100000x64_1_0_0_1_n_n none l r
theorem dot64_apply (y0 : (⟨S100000x64, .f32⟩ : BufTy).Contents (Elt Ideal)) (x5 : (⟨S64x64, .f32⟩ : BufTy).Contents (Elt Ideal)) (i : S100000x64.Idx) :
    dot64 (F := Ideal) y0 x5 i = ∑ k : Fin 64, y0 (lidx_main_v48 i k) * x5 (ridx_main_v48 i k) := by
  unfold dot64
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v48 i k := funext fun a => Fin.ext (by
    match a with
    | ⟨0, _⟩ => exact lhs_main_v48_0 _ _
    | ⟨1, _⟩ => exact (lhs_main_v48_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v48 i k := funext fun a => Fin.ext (by
    match a with
    | ⟨0, _⟩ => exact (rhs_main_v48_0 _ _).trans hk
    | ⟨1, _⟩ => exact rhs_main_v48_1 _ _)
  rw [el, er]

def val_main_c_9 : (⟨S_, .i32⟩ : BufTy).Contents (Elt F) :=
  constantI S_ 32 0#32
def val_main_v49 : (⟨S1700000, .i32⟩ : BufTy).Contents (Elt F) :=
  broadcastInDim S1700000 ![] bcast_S_S1700000 (val_main_c_9 (F := F))
def val_main_v50 : (⟨S1700000, .i1⟩ : BufTy).Contents (Elt F) :=
  cmpi .slt (val_main_v3 (F := F) x1) (val_main_v49 (F := F))
def val_main_c_10 : (⟨S_, .i32⟩ : BufTy).Contents (Elt F) :=
  constantI S_ 32 100000#32
def val_main_v51 : (⟨S1700000, .i32⟩ : BufTy).Contents (Elt F) :=
  broadcastInDim S1700000 ![] bcast_S_S1700000 (val_main_c_10 (F := F))
def val_main_v52 : (⟨S1700000, .i32⟩ : BufTy).Contents (Elt F) :=
  addi (val_main_v3 (F := F) x1) (val_main_v51 (F := F))
def val_main_v53 : (⟨S1700000, .i32⟩ : BufTy).Contents (Elt F) :=
  select (val_main_v50 (F := F) x1) (val_main_v52 (F := F) x1) (val_main_v3 (F := F) x1)
def val_main_v54 : (⟨S1700000x1, .i32⟩ : BufTy).Contents (Elt F) :=
  broadcastInDim S1700000x1 ![0] bcast_S1700000_S1700000x1_0 (val_main_v53 (F := F) x1)
def val_main_v55 : (⟨S1700000x64, .f32⟩ : BufTy).Contents (Elt F) :=
  Host.gather gather_S100000x64_S1700000x1_S1700000x64_1_0_n_n_0_1_164 (val_main_v48 (F := F) x0 x1 x3 x4 x5) (val_main_v54 (F := F) x1)

def val_main_v56 : (⟨S1700000x1, .f32⟩ : BufTy).Contents (Elt F) :=
  broadcastInDim S1700000x1 ![0] bcast_S1700000_S1700000x1_0 (val_main_v29 (F := F) x1)
def val_main_v57 : (⟨S1700000x64, .f32⟩ : BufTy).Contents (Elt F) :=
  broadcastInDim S1700000x64 ![0, 1] bcast_S1700000x1_S1700000x64_0_1 (val_main_v56 (F := F) x1)
def val_main_v58 : (⟨S1700000x64, .f32⟩ : BufTy).Contents (Elt F) :=
  mulf (val_main_v55 (F := F) x0 x1 x3 x4 x5) (val_main_v57 (F := F) x1)
def val_main_cst_11 : (⟨S_, .f32⟩ : BufTy).Contents (Elt F) :=
  constant S_ .f32 0x00000000#32
def val_main_v59 : (⟨S100000x64, .f32⟩ : BufTy).Contents (Elt F) :=
  broadcastInDim S100000x64 ![] bcast_S_S100000x64 (val_main_cst_11 (F := F))
def val_main_v60 : (⟨S1700000x1, .i32⟩ : BufTy).Contents (Elt F) :=
  broadcastInDim S1700000x1 ![0] bcast_S1700000_S1700000x1_0 (val_main_v6 (F := F) x1)
def val_main_v61 : (⟨S100000x64, .f32⟩ : BufTy).Contents (Elt F) :=
  Host.scatterAdd scatter_S100000x64_S1700000x1_S1700000x64_1_0_0_1 (val_main_v59 (F := F)) (val_main_v60 (F := F) x1) (val_main_v58 (F := F) x0 x1 x3 x4 x5)

def val_main_v62 : (⟨S1x64, .f32⟩ : BufTy).Contents (Elt F) :=
  broadcastInDim S1x64 ![1] bcast_S64_S1x64_1 (x6)
def val_main_v63 : (⟨S100000x64, .f32⟩ : BufTy).Contents (Elt F) :=
  broadcastInDim S100000x64 ![0, 1] bcast_S1x64_S100000x64_0_1 (val_main_v62 (F := F) x6)
def val_main_v64 : (⟨S100000x64, .f32⟩ : BufTy).Contents (Elt F) :=
  addf (val_main_v61 (F := F) x0 x1 x3 x4 x5) (val_main_v63 (F := F) x6)
def val_main_call2_cst : (⟨S_, .f32⟩ : BufTy).Contents (Elt F) :=
  constant S_ .f32 0x00000000#32
def val_main_call2_v0 : (⟨S100000x64, .f32⟩ : BufTy).Contents (Elt F) :=
  broadcastInDim S100000x64 ![] bcast_S_S100000x64 (val_main_call2_cst (F := F))
def val_main_v65 : (⟨S100000x64, .f32⟩ : BufTy).Contents (Elt F) :=
  maximumf (val_main_v64 (F := F) x0 x1 x3 x4 x5 x6) (val_main_call2_v0 (F := F))
def val_main_v66 : (⟨S100000x64, .f32⟩ : BufTy).Contents (Elt F) :=
  Host.dotGeneral dot_S100000x64_S64x64_S100000x64_1_0_0_1_n_n none (val_main_v65 (F := F) x0 x1 x3 x4 x5 x6) (x7)
def val_main_c_12 : (⟨S_, .i32⟩ : BufTy).Contents (Elt F) :=
  constantI S_ 32 0#32
def val_main_v67 : (⟨S1700000, .i32⟩ : BufTy).Contents (Elt F) :=
  broadcastInDim S1700000 ![] bcast_S_S1700000 (val_main_c_12 (F := F))
def val_main_v68 : (⟨S1700000, .i1⟩ : BufTy).Contents (Elt F) :=
  cmpi .slt (val_main_v3 (F := F) x1) (val_main_v67 (F := F))
def val_main_c_13 : (⟨S_, .i32⟩ : BufTy).Contents (Elt F) :=
  constantI S_ 32 100000#32
def val_main_v69 : (⟨S1700000, .i32⟩ : BufTy).Contents (Elt F) :=
  broadcastInDim S1700000 ![] bcast_S_S1700000 (val_main_c_13 (F := F))
def val_main_v70 : (⟨S1700000, .i32⟩ : BufTy).Contents (Elt F) :=
  addi (val_main_v3 (F := F) x1) (val_main_v69 (F := F))
def val_main_v71 : (⟨S1700000, .i32⟩ : BufTy).Contents (Elt F) :=
  select (val_main_v68 (F := F) x1) (val_main_v70 (F := F) x1) (val_main_v3 (F := F) x1)
def val_main_v72 : (⟨S1700000x1, .i32⟩ : BufTy).Contents (Elt F) :=
  broadcastInDim S1700000x1 ![0] bcast_S1700000_S1700000x1_0 (val_main_v71 (F := F) x1)
def val_main_v73 : (⟨S1700000x64, .f32⟩ : BufTy).Contents (Elt F) :=
  Host.gather gather_S100000x64_S1700000x1_S1700000x64_1_0_n_n_0_1_164 (val_main_v66 (F := F) x0 x1 x3 x4 x5 x6 x7) (val_main_v72 (F := F) x1)

def val_main_v74 : (⟨S1700000x1, .f32⟩ : BufTy).Contents (Elt F) :=
  broadcastInDim S1700000x1 ![0] bcast_S1700000_S1700000x1_0 (val_main_v29 (F := F) x1)
def val_main_v75 : (⟨S1700000x64, .f32⟩ : BufTy).Contents (Elt F) :=
  broadcastInDim S1700000x64 ![0, 1] bcast_S1700000x1_S1700000x64_0_1 (val_main_v74 (F := F) x1)
def val_main_v76 : (⟨S1700000x64, .f32⟩ : BufTy).Contents (Elt F) :=
  mulf (val_main_v73 (F := F) x0 x1 x3 x4 x5 x6 x7) (val_main_v75 (F := F) x1)
def val_main_cst_14 : (⟨S_, .f32⟩ : BufTy).Contents (Elt F) :=
  constant S_ .f32 0x00000000#32
def val_main_v77 : (⟨S100000x64, .f32⟩ : BufTy).Contents (Elt F) :=
  broadcastInDim S100000x64 ![] bcast_S_S100000x64 (val_main_cst_14 (F := F))
def val_main_v78 : (⟨S1700000x1, .i32⟩ : BufTy).Contents (Elt F) :=
  broadcastInDim S1700000x1 ![0] bcast_S1700000_S1700000x1_0 (val_main_v6 (F := F) x1)
def val_main_v79 : (⟨S100000x64, .f32⟩ : BufTy).Contents (Elt F) :=
  Host.scatterAdd scatter_S100000x64_S1700000x1_S1700000x64_1_0_0_1 (val_main_v77 (F := F)) (val_main_v78 (F := F) x1) (val_main_v76 (F := F) x0 x1 x3 x4 x5 x6 x7)

def val_main_v80 : (⟨S1x64, .f32⟩ : BufTy).Contents (Elt F) :=
  broadcastInDim S1x64 ![1] bcast_S64_S1x64_1 (x8)
def val_main_v81 : (⟨S100000x64, .f32⟩ : BufTy).Contents (Elt F) :=
  broadcastInDim S100000x64 ![0, 1] bcast_S1x64_S100000x64_0_1 (val_main_v80 (F := F) x8)
def val_main_v82 : (⟨S100000x64, .f32⟩ : BufTy).Contents (Elt F) :=
  addf (val_main_v79 (F := F) x0 x1 x3 x4 x5 x6 x7) (val_main_v81 (F := F) x8)
def val_main_call3_cst : (⟨S_, .f32⟩ : BufTy).Contents (Elt F) :=
  constant S_ .f32 0x00000000#32
def val_main_call3_v0 : (⟨S100000x64, .f32⟩ : BufTy).Contents (Elt F) :=
  broadcastInDim S100000x64 ![] bcast_S_S100000x64 (val_main_call3_cst (F := F))
def val_main_v83 : (⟨S100000x64, .f32⟩ : BufTy).Contents (Elt F) :=
  maximumf (val_main_v82 (F := F) x0 x1 x3 x4 x5 x6 x7 x8) (val_main_call3_v0 (F := F))
def val_main_cst_15 : (⟨S_, .f32⟩ : BufTy).Contents (Elt F) :=
  constant S_ .f32 0x00000000#32
def val_main_v84 : (⟨S128x64, .f32⟩ : BufTy).Contents (Elt F) :=
  broadcastInDim S128x64 ![] bcast_S_S128x64 (val_main_cst_15 (F := F))
def val_main_v85 : (⟨S100000x1, .i32⟩ : BufTy).Contents (Elt F) :=
  broadcastInDim S100000x1 ![0] bcast_S100000_S100000x1_0 (x2)
def val_main_v86 : (⟨S128x64, .f32⟩ : BufTy).Contents (Elt F) :=
  Host.scatterAdd scatter_S128x64_S100000x1_S100000x64_1_0_0_1 (val_main_v84 (F := F)) (val_main_v85 (F := F) x2) (val_main_v83 (F := F) x0 x1 x3 x4 x5 x6 x7 x8)

def val_main_cst_16 : (⟨S_, .f32⟩ : BufTy).Contents (Elt F) :=
  constant S_ .f32 0x3F800000#32
def val_main_v87 : (⟨S100000, .f32⟩ : BufTy).Contents (Elt F) :=
  broadcastInDim S100000 ![] bcast_S_S100000 (val_main_cst_16 (F := F))
def val_main_cst_17 : (⟨S_, .f32⟩ : BufTy).Contents (Elt F) :=
  constant S_ .f32 0x00000000#32
def val_main_v88 : (⟨S128, .f32⟩ : BufTy).Contents (Elt F) :=
  broadcastInDim S128 ![] bcast_S_S128 (val_main_cst_17 (F := F))
def val_main_v89 : (⟨S100000x1, .i32⟩ : BufTy).Contents (Elt F) :=
  broadcastInDim S100000x1 ![0] bcast_S100000_S100000x1_0 (x2)
def val_main_v90 : (⟨S128, .f32⟩ : BufTy).Contents (Elt F) :=
  Host.scatterAdd scatter_S128_S100000x1_S100000_n_0_0_1 (val_main_v88 (F := F)) (val_main_v89 (F := F) x2) (val_main_v87 (F := F))

def val_main_cst_18 : (⟨S_, .f32⟩ : BufTy).Contents (Elt F) :=
  constant S_ .f32 0x3F800000#32
def val_main_v91 : (⟨S128, .f32⟩ : BufTy).Contents (Elt F) :=
  broadcastInDim S128 ![] bcast_S_S128 (val_main_cst_18 (F := F))
def val_main_v92 : (⟨S128, .f32⟩ : BufTy).Contents (Elt F) :=
  maximumf (val_main_v90 (F := F) x2) (val_main_v91 (F := F))
def val_main_v93 : (⟨S128x1, .f32⟩ : BufTy).Contents (Elt F) :=
  broadcastInDim S128x1 ![0] bcast_S128_S128x1_0 (val_main_v92 (F := F) x2)
def val_main_v94 : (⟨S128x64, .f32⟩ : BufTy).Contents (Elt F) :=
  broadcastInDim S128x64 ![0, 1] bcast_S128x1_S128x64_0_1 (val_main_v93 (F := F) x2)
def val_main_v95 : (⟨S128x64, .f32⟩ : BufTy).Contents (Elt F) :=
  Host.divf (val_main_v86 (F := F) x0 x1 x2 x3 x4 x5 x6 x7 x8) (val_main_v94 (F := F) x2)
def val_main_v96 : (⟨S128x128, .f32⟩ : BufTy).Contents (Elt F) :=
  Host.dotGeneral dot_S128x64_S64x128_S128x128_1_0_0_1_n_n none (val_main_v95 (F := F) x0 x1 x2 x3 x4 x5 x6 x7 x8) (x9)
def val_main_v97 : (⟨S1x128, .f32⟩ : BufTy).Contents (Elt F) :=
  broadcastInDim S1x128 ![1] bcast_S128_S1x128_1 (x10)
def val_main_v98 : (⟨S128x128, .f32⟩ : BufTy).Contents (Elt F) :=
  broadcastInDim S128x128 ![0, 1] bcast_S1x128_S128x128_0_1 (val_main_v97 (F := F) x10)
def val_main_v99 : (⟨S128x128, .f32⟩ : BufTy).Contents (Elt F) :=
  addf (val_main_v96 (F := F) x0 x1 x2 x3 x4 x5 x6 x7 x8 x9) (val_main_v98 (F := F) x10)
def val_main_call4_cst : (⟨S_, .f32⟩ : BufTy).Contents (Elt F) :=
  constant S_ .f32 0x00000000#32
def val_main_call4_v0 : (⟨S128x128, .f32⟩ : BufTy).Contents (Elt F) :=
  broadcastInDim S128x128 ![] bcast_S_S128x128 (val_main_call4_cst (F := F))
def val_main_v100 : (⟨S128x128, .f32⟩ : BufTy).Contents (Elt F) :=
  maximumf (val_main_v99 (F := F) x0 x1 x2 x3 x4 x5 x6 x7 x8 x9 x10) (val_main_call4_v0 (F := F))
def val_main_v101 : (⟨S128x1, .f32⟩ : BufTy).Contents (Elt F) :=
  Host.dotGeneral dot_S128x128_S128x1_S128x1_1_0_0_1_n_n none (val_main_v100 (F := F) x0 x1 x2 x3 x4 x5 x6 x7 x8 x9 x10) (x11)
def val_main_v102 : (⟨S1x1, .f32⟩ : BufTy).Contents (Elt F) :=
  broadcastInDim S1x1 ![1] bcast_S1_S1x1_1 (x12)
def val_main_v103 : (⟨S128x1, .f32⟩ : BufTy).Contents (Elt F) :=
  broadcastInDim S128x1 ![0, 1] bcast_S1x1_S128x1_0_1 (val_main_v102 (F := F) x12)
def val_main_v104 : (⟨S128x1, .f32⟩ : BufTy).Contents (Elt F) :=
  addf (val_main_v101 (F := F) x0 x1 x2 x3 x4 x5 x6 x7 x8 x9 x10 x11) (val_main_v103 (F := F) x12)
theorem val_main_v104_eq (m : (ℓ : Loc nD τ sig) → Buf (Elt F) ℓ) (c : Dev nD) :
    Cert.ReferenceIdeal.ValueP.res_main_v104 m c = val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v104; rfl

end Cert.ReferenceIdeal.ReadP

end
-- ==== Proof.KPre.lean ====
import proofs.«413861_j21509196218552_2_alg».proof.Proof.Gen.KernelIdeal.Launch
import proofs.«413861_j21509196218552_2_alg».proof.Proof.Gen.KernelIdeal.Regions
import proofs.«413861_j21509196218552_2_alg».proof.Proof.RefReadP
import Idealize.ShloMosaic.Lib.StableHlo.Run

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

def srcK (ei : Vec F S2x1600000 .i32) : Vec F S1700000 .i32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

def dstK (ei : Vec F S2x1600000 .i32) : Vec F S1700000 .i32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

def degK (dst : Vec F S1700000 .i32) : Vec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

def dinvK (dst : Vec F S1700000 .i32) : Vec F S100000 .f32 :=
  select (cmpf .ogt (degK dst) (broadcastInDim S100000 ![] bcast_S_S100000 (constant S_ .f32 0x00000000#32)))
    (Host.rsqrt (degK dst))
    (broadcastInDim S100000 ![] bcast_S_S100000 (constant S_ .f32 0x00000000#32))

def wrapK (ix : Vec F S1700000 .i32) : Vec F S1700000 .i32 :=
  select (cmpi .slt ix (broadcastInDim S1700000 ![] bcast_S_S1700000 (constantI S_ 32 0#32)))
    (addi ix (broadcastInDim S1700000 ![] bcast_S_S1700000 (constantI S_ 32 100000#32))) ix

def normK (ei : Vec F S2x1600000 .i32) : Vec F S1700000 .f32 :=
  mulf
    (Host.gather gather_S100000_S1700000x1_S1700000_n_0_n_n_0_1_1 (dinvK (dstK ei))
      (broadcastInDim S1700000x1 ![0] bcast_S1700000_S1700000x1_0 (wrapK (srcK ei))))
    (Host.gather gather_S100000_S1700000x1_S1700000_n_0_n_n_0_1_1 (dinvK (dstK ei))
      (broadcastInDim S1700000x1 ![0] bcast_S1700000_S1700000x1_0 (wrapK (dstK ei))))

section Opening
variable (W : Valuation τ sig (Elt F))

theorem open_v3 : StableHlo.after hostOps0_2 (StableHlo.after hostOps0_1 (StableHlo.after hostOps0 W)) (Proc.devRef .tc main_v3)
    = srcK (W (Proc.devRef .tc main_arg1)) := by
  after_results_simp <;> (try simp only [StableHlo.TRef.ofBuf, StableHlo.TRef.toBuf, cast_eq]) <;> rfl
theorem open_v6 : StableHlo.after hostOps0_2 (StableHlo.after hostOps0_1 (StableHlo.after hostOps0 W)) (Proc.devRef .tc main_v6)
    = dstK (W (Proc.devRef .tc main_arg1)) := by
  after_results_simp <;> (try simp only [StableHlo.TRef.ofBuf, StableHlo.TRef.toBuf, cast_eq]) <;> rfl
set_option maxHeartbeats 1000000 in
theorem open_v29 : StableHlo.after hostOps0_2 (StableHlo.after hostOps0_1 (StableHlo.after hostOps0 W)) (Proc.devRef .tc main_v29)
    = normK (W (Proc.devRef .tc main_arg1)) := by
  after_results_simp <;> (try simp only [StableHlo.TRef.ofBuf, StableHlo.TRef.toBuf, cast_eq]) <;> rfl

end Opening

section AtLaunch
variable (m : (ℓ : Loc nD τ sig) → Buf (Elt F) ℓ)

theorem V3_v3 (c : Dev nD) : Gen.V3 m c main_v3 = srcK (m ((c : Thread nD τ).loc main_arg1)) := open_v3 _
theorem V3_v6 (c : Dev nD) : Gen.V3 m c main_v6 = dstK (m ((c : Thread nD τ).loc main_arg1)) := open_v6 _
theorem V3_v29 (c : Dev nD) : Gen.V3 m c main_v29 = normK (m ((c : Thread nD τ).loc main_arg1)) := open_v29 _

end AtLaunch

theorem srcK_ref (ei : Vec F S2x1600000 .i32) : srcK (F := F) ei = Cert.ReferenceIdeal.ReadP.val_main_v3 (F := F) ei := by
  unfold srcK Cert.ReferenceIdeal.ReadP.val_main_v3 Cert.ReferenceIdeal.ReadP.val_main_v2 Cert.ReferenceIdeal.ReadP.val_main_v1 Cert.ReferenceIdeal.ReadP.val_main_v0
  rfl

theorem dstK_ref (ei : Vec F S2x1600000 .i32) : dstK (F := F) ei = Cert.ReferenceIdeal.ReadP.val_main_v6 (F := F) ei := by
  unfold dstK Cert.ReferenceIdeal.ReadP.val_main_v6 Cert.ReferenceIdeal.ReadP.val_main_v5 Cert.ReferenceIdeal.ReadP.val_main_v4 Cert.ReferenceIdeal.ReadP.val_main_v0
  rfl

theorem degK_ref (ei : Vec F S2x1600000 .i32) : degK (F := F) (dstK ei) = Cert.ReferenceIdeal.ReadP.val_main_v10 (F := F) ei := by
  rw [dstK_ref]
  unfold degK Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_cst Cert.ReferenceIdeal.ReadP.val_main_cst_0
  rfl

theorem dinvK_ref (ei : Vec F S2x1600000 .i32) : dinvK (F := F) (dstK ei) = Cert.ReferenceIdeal.ReadP.val_main_v14 (F := F) ei := by
  unfold dinvK
  rw [degK_ref]
  unfold Cert.ReferenceIdeal.ReadP.val_main_v14 Cert.ReferenceIdeal.ReadP.val_main_v13 Cert.ReferenceIdeal.ReadP.val_main_v12 Cert.ReferenceIdeal.ReadP.val_main_v11 Cert.ReferenceIdeal.ReadP.val_main_cst_1 Cert.ReferenceIdeal.ReadP.val_main_call0_v1 Cert.ReferenceIdeal.ReadP.val_main_call0_v0 Cert.ReferenceIdeal.ReadP.val_main_cst_2
  rfl

theorem wrapK_src_ref (ei : Vec F S2x1600000 .i32) : wrapK (F := F) (srcK ei) = Cert.ReferenceIdeal.ReadP.val_main_v19 (F := F) ei := by
  rw [srcK_ref]
  unfold wrapK Cert.ReferenceIdeal.ReadP.val_main_v19 Cert.ReferenceIdeal.ReadP.val_main_v18 Cert.ReferenceIdeal.ReadP.val_main_v17 Cert.ReferenceIdeal.ReadP.val_main_c_3 Cert.ReferenceIdeal.ReadP.val_main_v16 Cert.ReferenceIdeal.ReadP.val_main_v15 Cert.ReferenceIdeal.ReadP.val_main_c
  rfl

theorem wrapK_dst_ref (ei : Vec F S2x1600000 .i32) : wrapK (F := F) (dstK ei) = Cert.ReferenceIdeal.ReadP.val_main_v26 (F := F) ei := by
  rw [dstK_ref]
  unfold wrapK Cert.ReferenceIdeal.ReadP.val_main_v26 Cert.ReferenceIdeal.ReadP.val_main_v25 Cert.ReferenceIdeal.ReadP.val_main_v24 Cert.ReferenceIdeal.ReadP.val_main_c_5 Cert.ReferenceIdeal.ReadP.val_main_v23 Cert.ReferenceIdeal.ReadP.val_main_v22 Cert.ReferenceIdeal.ReadP.val_main_c_4
  rfl

theorem normK_ref (ei : Vec F S2x1600000 .i32) : normK (F := F) ei = Cert.ReferenceIdeal.ReadP.val_main_v29 (F := F) ei := by
  unfold normK
  rw [dinvK_ref, wrapK_src_ref, wrapK_dst_ref]
  unfold Cert.ReferenceIdeal.ReadP.val_main_v29 Cert.ReferenceIdeal.ReadP.val_main_v28 Cert.ReferenceIdeal.ReadP.val_main_v27 Cert.ReferenceIdeal.ReadP.val_main_v21 Cert.ReferenceIdeal.ReadP.val_main_v20
  rfl

end Cert.KernelIdeal.Hand

end
-- ==== Proof.Val0.lean ====
import proofs.«413861_j21509196218552_2_alg».proof.Proof.Reg0
import proofs.«413861_j21509196218552_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem mm0_lhs_0 (j : S10000x64.Idx) (q : dot_S10000x3_S3x64_S10000x64_1_0_0_1_n_n.contr.Idx) :
    (dot_S10000x3_S3x64_S10000x64_1_0_0_1_n_n.lhsIdx j q 0).val = (j 0).val := by
  unfold DotDims.lhsIdx
  rw [dif_neg (show ¬(0 : Fin S10000x3.rank) ∈ dot_S10000x3_S3x64_S10000x64_1_0_0_1_n_n.lhsBatch by decide), dif_pos (show (0 : Fin S10000x3.rank) ∈ dot_S10000x3_S3x64_S10000x64_1_0_0_1_n_n.lhsNonContracting by decide)]
  rfl
theorem mm0_lhs_1 (j : S10000x64.Idx) (q : dot_S10000x3_S3x64_S10000x64_1_0_0_1_n_n.contr.Idx) :
    (dot_S10000x3_S3x64_S10000x64_1_0_0_1_n_n.lhsIdx j q 1).val = (q ⟨0, by decide⟩).val :=
  dot_S10000x3_S3x64_S10000x64_1_0_0_1_n_n.lhsIdx_val_of_single rfl j q
theorem mm0_rhs_0 (j : S10000x64.Idx) (q : dot_S10000x3_S3x64_S10000x64_1_0_0_1_n_n.contr.Idx) :
    (dot_S10000x3_S3x64_S10000x64_1_0_0_1_n_n.rhsIdx j q 0).val = (q ⟨0, by decide⟩).val :=
  dot_S10000x3_S3x64_S10000x64_1_0_0_1_n_n.rhsIdx_val_of_single rfl j q
theorem mm0_rhs_1 (j : S10000x64.Idx) (q : dot_S10000x3_S3x64_S10000x64_1_0_0_1_n_n.contr.Idx) :
    (dot_S10000x3_S3x64_S10000x64_1_0_0_1_n_n.rhsIdx j q 1).val = (j 1).val := by
  unfold DotDims.rhsIdx
  rw [dif_neg (show ¬(1 : Fin S3x64.rank) ∈ dot_S10000x3_S3x64_S10000x64_1_0_0_1_n_n.rhsBatch by decide), dif_pos (show (1 : Fin S3x64.rank) ∈ dot_S10000x3_S3x64_S10000x64_1_0_0_1_n_n.rhsNonContracting by decide)]
  rfl

theorem k0_pay1_apply (x : Vec Ideal S10000x3 .f32) (w : Vec Ideal S3x64 .f32) (p : Fin 10000) (q : Fin 64) :
    k0_pay1 (F := Ideal) x w (ix2 p q) = ∑ k : Fin 3, x (ix2 p k) * w (ix2 k q) := by
  unfold k0_pay1
  simp only [matmul]
  rw [Ideal.matmul_constant_zero_apply, ← Equiv.sum_comp (contrEquiv1 dot_S10000x3_S3x64_S10000x64_1_0_0_1_n_n 3 rfl rfl).symm]
  refine Finset.sum_congr rfl fun k _ => ?_
  have hk := contrEquiv1_symm_val dot_S10000x3_S3x64_S10000x64_1_0_0_1_n_n 3 rfl rfl k
  have el : dot_S10000x3_S3x64_S10000x64_1_0_0_1_n_n.lhsIdx (ix2 p q) ((contrEquiv1 dot_S10000x3_S3x64_S10000x64_1_0_0_1_n_n 3 rfl rfl).symm k) = ix2 p k := funext fun a => Fin.ext (by
    match a with
    | ⟨0, _⟩ => exact mm0_lhs_0 _ _
    | ⟨1, _⟩ => exact (mm0_lhs_1 _ _).trans hk)
  have er : dot_S10000x3_S3x64_S10000x64_1_0_0_1_n_n.rhsIdx (ix2 p q) ((contrEquiv1 dot_S10000x3_S3x64_S10000x64_1_0_0_1_n_n 3 rfl rfl).symm k) = ix2 k q := funext fun a => Fin.ext (by
    match a with
    | ⟨0, _⟩ => exact (mm0_rhs_0 _ _).trans hk
    | ⟨1, _⟩ => exact mm0_rhs_1 _ _)
  rw [el, er]
  rfl

theorem k0_pay1_eq_mm (X : Cert.Spec.Mat 100000 3) (W : Cert.Spec.Mat 3 64)
    (x : Vec Ideal S10000x3 .f32) (w : Vec Ideal S3x64 .f32) (j : S10000x64.Idx) (i : S100000x64.Idx)
    (hx : ∀ k : Fin 3, x (ix2 (j 0) k) = X (ix2 (i 0) k))
    (hw : ∀ k : Fin 3, w (ix2 k (j 1)) = W (ix2 k (i 1))) :
    k0_pay1 (F := Ideal) x w j = Cert.Spec.mm X W i := by
  obtain ⟨p, q, rfl⟩ : ∃ (p : Fin 10000) (q : Fin 64), j = ix2 p q := ⟨j 0, j 1, eq_ix2 j⟩
  rw [k0_pay1_apply]
  unfold Cert.Spec.mm
  exact Finset.sum_congr rfl fun k _ => by rw [hx k, hw k]

theorem hz0 : (![0, 0] : Fin 2 → Nat) = fun _ => 0 := funext fun a => by fin_cases a <;> rfl

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

theorem idx_onto0 : ∀ (q0 : Fin 10), ∃ t : Fin cfg0.N, win0_2.index t = ![q0.val, 0] :=
  (by decide +kernel : ∀ (q0 : Fin 10), ∃ t : Fin grid0.N, win0_2.index t = ![q0.val, 0])

theorem mem_blk0_2 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

theorem cover0_2_arr (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

section Value
variable (V : (c : Dev nD) → (b : Ref sig .tc) → Buf (Elt Ideal) ((c : Thread nD τ).loc b))

theorem flushed0_2_eq (c : Dev nD) (t : Fin cfg0.N) :
    (dat0 (F := Ideal) V c).flushed 2 t
      = ((cfg0.win 2).blk t).view.read (Elt Ideal) (Cert.Spec.mm (V c main_arg0 : S100000x3.Idx → Elt Ideal .f32) (V c main_arg3 : S3x64.Idx → Elt Ideal .f32)) := by
  show (cfg0.win 2).cut (grid0.coords t) ((dat0 V c).after 2 t) = _
  rw [after0_2]
  unfold out0_2
  rw [View.canon_unit_zero hz0]
  simp only [View.ld_unit_zero (S := S10000x3) hz0, View.ld_unit_zero (S := S3x64) hz0]
  obtain ⟨e0, e1, e2, e3, e4, e5⟩ := idx_facts0 t
  funext j
  refine k0_pay1_eq_mm (V c main_arg0) (V c main_arg3) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 3 + 1 * k.val = k.val; omega
  · show V c main_arg3 (((cfg0.win 1).blk t).view.emb (ix2 k (j 1))) = V c main_arg3 (ix2 k ((((cfg0.win 2).blk t).view.emb j) 1))
    refine congrArg _ (funext fun a => Fin.ext ?_)
    match a with
    | ⟨0, _⟩ => show win0_1.index t (0 : Fin 2) * 3 + 1 * k.val = k.val; omega
    | ⟨1, _⟩ => show win0_1.index t (1 : Fin 2) * 64 + 1 * (j 1).val = win0_2.index t (1 : Fin 2) * 64 + 1 * (j 1).val; omega

theorem arr0_2 (c : Dev nD) :
    (dat0 (F := Ideal) V c).arrAt 2 cfg0.N
      = Cert.Spec.mm (V c main_arg0 : S100000x3.Idx → Elt Ideal .f32) (V c main_arg3 : S3x64.Idx → Elt Ideal .f32) :=
  (dat0 V c).arrAt_eq_of_cover 2 _ (fun t _ => flushed0_2_eq V c t) cover0_2_arr

end Value

end Cert.KernelIdeal.Hand

end
-- ==== Proof.LayerPay.lean ====
import proofs.«413861_j21509196218552_2_alg».proof.Proof.Gen.KernelIdeal.Skeleton
import proofs.«413861_j21509196218552_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem lhs_layerDot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_layerDot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_layerDot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_layerDot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem layerMatmul_apply (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_layerDot_0 _ _
    | ⟨1, _⟩ => exact (lhs_layerDot_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_layerDot_0 _ _).trans hk
    | ⟨1, _⟩ => exact rhs_layerDot_1 _ _)
  rw [el, er]

theorem layerPay_apply (x0 : Vec Ideal S10000x64 .f32) (x1 : Vec Ideal S1x64 .f32) (x2 : Vec Ideal S64x64 .f32) (p : Fin 10000) (q : Fin 64) :
    k1_pay1 (F := Ideal) x0 x1 x2 (ix2 p q) = Cert.Spec.layer (n := 10000) (k := 64) (p := 64) x0 x1 x2 (ix2 p q) := by
  unfold k1_pay1
  rw [layerMatmul_apply]
  unfold Cert.Spec.layer Cert.Spec.mm Cert.Spec.brelu
  refine Finset.sum_congr rfl fun k _ => ?_
  rw [truncf_apply, truncf_apply, maximumf_apply, addf_apply, broadcast_apply, shapeCast_self, shapeCast_self,
    broadcastTo_1b_ab_apply]
  show max (x0 (ix2 p k) + x1 (ix2 0 k)) (Ideal.ofBits .f32 0x00000000#32) * x2 (ix2 k q) = _
  rw [Ideal.ofBits_zero_f32]

-- a row block's layer is the whole array's layer at the block's rows, because the product runs along a row
theorem layerPay_rows (x0 : Vec Ideal S10000x64 .f32) (x1 : Vec Ideal S1x64 .f32) (x2 : Vec Ideal S64x64 .f32)
    (A : Cert.Spec.Mat 100000 64) (B : Cert.Spec.Mat 1 64) (W : Cert.Spec.Mat 64 64) (o : Nat)
    (h0 : ∀ (r : Fin 10000) (k : Fin 64) (R : Fin 100000), R.val = o + r.val → x0 (ix2 r k) = A (ix2 R k))
    (h1 : x1 = B) (h2 : x2 = W)
    (j : S10000x64.Idx) (i : S100000x64.Idx) (hi0 : (i 0).val = o + (j 0).val) (hi1 : (i 1).val = (j 1).val) :
    k1_pay1 (F := Ideal) x0 x1 x2 j = Cert.Spec.layer A B W i := by
  obtain ⟨p, q, rfl⟩ : ∃ (p : Fin 10000) (q : Fin 64), j = ix2 p q := ⟨j 0, j 1, eq_ix2 j⟩
  obtain ⟨R, q', rfl⟩ : ∃ (R : Fin 100000) (q' : Fin 64), i = ix2 R q' := ⟨i 0, i 1, eq_ix2 i⟩
  obtain rfl : q' = q := Fin.ext hi1
  subst h1 h2
  rw [layerPay_apply]
  unfold Cert.Spec.layer Cert.Spec.mm Cert.Spec.brelu
  refine Finset.sum_congr rfl fun k _ => ?_
  show max (x0 (ix2 p k) + x1 (ix2 0 k)) 0 * x2 (ix2 k q') = max (A (ix2 R k) + x1 (ix2 0 k)) 0 * x2 (ix2 k q')
  rw [h0 p k R hi0]

end Cert.KernelIdeal.Hand

end
-- ==== Proof.Val1.lean ====
import proofs.«413861_j21509196218552_2_alg».proof.Proof.Reg1
import proofs.«413861_j21509196218552_2_alg».proof.Proof.LayerPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

section Region1Value

variable (V : (c : Dev nD) → (b : Ref sig .tc) → Buf (Elt Ideal) ((c : Thread nD τ).loc b))

theorem hz1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem iblk1_0_apply (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c main_v43 : S100000x64.Idx → Elt Ideal .f32) k := by
  obtain ⟨e0, e1, -⟩ := idx_facts1 t
  unfold iblk1
  rw [View.read_apply]
  show V c main_v43 _ = V c main_v43 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

theorem iblk1_1_eq (c : Dev nD) (t : Fin cfg1.N) :
    (iblk1 V c 1 t : Vec Ideal S1x64 .f32) = (V c main_v44 : S1x64.Idx → Elt Ideal .f32) := by
  obtain ⟨-, -, e0, e1, -⟩ := idx_facts1 t
  funext x
  unfold iblk1
  rw [View.read_apply]
  show V c main_v44 _ = V c main_v44 _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 64 + 1 * (x 1).val = (x 1).val; rw [e1]; omega

theorem iblk1_2_eq (c : Dev nD) (t : Fin cfg1.N) :
    (iblk1 V c 2 t : Vec Ideal S64x64 .f32) = (V c main_arg5 : S64x64.Idx → Elt Ideal .f32) := by
  obtain ⟨-, -, -, -, e0, e1, -⟩ := idx_facts1 t
  funext x
  unfold iblk1
  rw [View.read_apply]
  show V c main_arg5 _ = V c main_arg5 _
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

theorem flushed1_3_eq (c : Dev nD) (t : Fin cfg1.N) :
    (dat1 V c).flushed 3 t = ((cfg1.win 3).blk t).view.read (Elt Ideal)
      (Cert.Spec.layer (n := 100000) (k := 64) (p := 64) (V c main_v43 : S100000x64.Idx → Elt Ideal .f32)
        (V c main_v44 : S1x64.Idx → Elt Ideal .f32) (V c main_arg5 : S64x64.Idx → Elt Ideal .f32)) := by
  show (cfg1.win 3).cut (grid1.coords t) ((dat1 V c).after 3 t) = _
  rw [after1_3]
  unfold out1_3
  rw [View.canon_unit_zero hz1]
  simp only [View.ld_unit_zero (S := S10000x64) hz1, View.ld_unit_zero (S := S1x64) hz1, View.ld_unit_zero (S := S64x64) hz1]
  obtain ⟨-, -, -, -, -, -, e0, e1⟩ := idx_facts1 t
  funext j
  show k1_pay1 (F := Ideal) (iblk1 V c 0 t) (iblk1 V c 1 t) (iblk1 V c 2 t) j
    = Cert.Spec.layer (n := 100000) (k := 64) (p := 64) (V c main_v43 : S100000x64.Idx → Elt Ideal .f32)
        (V c main_v44 : S1x64.Idx → Elt Ideal .f32) (V c main_arg5 : S64x64.Idx → Elt Ideal .f32) (((cfg1.win 3).blk t).view.emb j)
  refine layerPay_rows _ _ _ _ _ _ (10000 * t.val) (fun r k R hR => ?_) (iblk1_1_eq V c t) (iblk1_2_eq V c t) j _ ?_ ?_
  · exact iblk1_0_apply V c t (ix2 r k) (ix2 R k) hR rfl
  · show win1_3.index t (0 : Fin 2) * 10000 + 1 * (j 0).val = 10000 * t.val + (j 0).val; rw [e0]; omega
  · show win1_3.index t (1 : Fin 2) * 64 + 1 * (j 1).val = (j 1).val; rw [e1]; omega

theorem mem_blk1_3 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

theorem cover1_3_arr (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e0, e1⟩ := idx_facts1 t
  refine ⟨t, flush1_3 t, ?_⟩
  rw [mem_blk1_3]
  intro a
  match a with
  | ⟨0, _⟩ =>
    show win1_3.index t (0 : Fin 2) * 10000 ≤ (i 0).val ∧ (i 0).val < win1_3.index t (0 : Fin 2) * 10000 + 10000
    rw [e0]; show (i 0).val / 10000 * 10000 ≤ (i 0).val ∧ (i 0).val < (i 0).val / 10000 * 10000 + 10000; omega
  | ⟨1, _⟩ =>
    show win1_3.index t (1 : Fin 2) * 64 ≤ (i 1).val ∧ (i 1).val < win1_3.index t (1 : Fin 2) * 64 + 64
    rw [e1]; omega

theorem arr1_3 (c : Dev nD) :
    (dat1 (F := Ideal) V c).arrAt 3 cfg1.N
      = Cert.Spec.layer (n := 100000) (k := 64) (p := 64) (V c main_v43 : S100000x64.Idx → Elt Ideal .f32)
          (V c main_v44 : S1x64.Idx → Elt Ideal .f32) (V c main_arg5 : S64x64.Idx → Elt Ideal .f32) :=
  (dat1 V c).arrAt_eq_of_cover 3 _ (fun t _ => flushed1_3_eq V c t) cover1_3_arr

end Region1Value

end Cert.KernelIdeal.Hand

end
-- ==== Proof.Val2.lean ====
import proofs.«413861_j21509196218552_2_alg».proof.Proof.Reg2
import proofs.«413861_j21509196218552_2_alg».proof.Proof.LayerPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

section Region2Value

variable (V : (c : Dev nD) → (b : Ref sig .tc) → Buf (Elt Ideal) ((c : Thread nD τ).loc b))

theorem hz2 : (![0, 0] : Fin 2 → Nat) = fun _ => 0 := funext fun a => by fin_cases a <;> rfl

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem iblk2_0_apply (c : Dev nD) (t : Fin cfg2.N) (x : S10000x64.Idx) (k : S100000x64.Idx)
    (hk0 : (k 0).val = 10000 * t.val + (x 0).val) (hk1 : (k 1).val = (x 1).val) :
    (iblk2 V c 0 t : Vec Ideal S10000x64 .f32) x = (V c main_v58 : S100000x64.Idx → Elt Ideal .f32) k := by
  obtain ⟨e0, e1, -⟩ := idx_facts2 t
  unfold iblk2
  rw [View.read_apply]
  show V c main_v58 _ = V c main_v58 _
  congr 1
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 64 + 1 * (x 1).val = (k 1).val; rw [e1, hk1]; omega

theorem iblk2_1_eq (c : Dev nD) (t : Fin cfg2.N) :
    (iblk2 V c 1 t : Vec Ideal S1x64 .f32) = (V c main_v59 : S1x64.Idx → Elt Ideal .f32) := by
  obtain ⟨-, -, e0, e1, -⟩ := idx_facts2 t
  funext x
  unfold iblk2
  rw [View.read_apply]
  show V c main_v59 _ = V c main_v59 _
  congr 1
  funext a
  apply Fin.ext
  match a with
  | ⟨0, _⟩ => show win2_1.index t (0 : Fin 2) * 1 + 1 * (x 0).val = (x 0).val; rw [e0]; omega
  | ⟨1, _⟩ => show win2_1.index t (1 : Fin 2) * 64 + 1 * (x 1).val = (x 1).val; rw [e1]; omega

theorem iblk2_2_eq (c : Dev nD) (t : Fin cfg2.N) :
    (iblk2 V c 2 t : Vec Ideal S64x64 .f32) = (V c main_arg7 : S64x64.Idx → Elt Ideal .f32) := by
  obtain ⟨-, -, -, -, e0, e1, -⟩ := idx_facts2 t
  funext x
  unfold iblk2
  rw [View.read_apply]
  show V c main_arg7 _ = V c main_arg7 _
  congr 1
  funext a
  apply Fin.ext
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

theorem flushed2_3_eq (c : Dev nD) (t : Fin cfg2.N) :
    (dat2 V c).flushed 3 t = ((cfg2.win 3).blk t).view.read (Elt Ideal)
      (Cert.Spec.layer (n := 100000) (k := 64) (p := 64) (V c main_v58 : S100000x64.Idx → Elt Ideal .f32)
        (V c main_v59 : S1x64.Idx → Elt Ideal .f32) (V c main_arg7 : S64x64.Idx → Elt Ideal .f32)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S1x64) hz2, View.ld_unit_zero (S := S64x64) hz2]
  obtain ⟨-, -, -, -, -, -, e0, e1⟩ := idx_facts2 t
  funext j
  show k2_pay1 (F := Ideal) (iblk2 V c 0 t) (iblk2 V c 1 t) (iblk2 V c 2 t) j
    = Cert.Spec.layer (n := 100000) (k := 64) (p := 64) (V c main_v58 : S100000x64.Idx → Elt Ideal .f32)
        (V c main_v59 : S1x64.Idx → Elt Ideal .f32) (V c main_arg7 : S64x64.Idx → Elt Ideal .f32) (((cfg2.win 3).blk t).view.emb j)
  refine layerPay_rows _ _ _ _ _ _ (10000 * t.val) (fun r k R hR => ?_) (iblk2_1_eq V c t) (iblk2_2_eq V c t) j _ ?_ ?_
  · exact iblk2_0_apply V c t (ix2 r k) (ix2 R k) hR rfl
  · show win2_3.index t (0 : Fin 2) * 10000 + 1 * (j 0).val = 10000 * t.val + (j 0).val; rw [e0]; omega
  · show win2_3.index t (1 : Fin 2) * 64 + 1 * (j 1).val = (j 1).val; rw [e1]; omega

theorem mem_blk2_3 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v60).slice (win2_3.rect t)).set ↔ _
  rw [View.set_slice_whole, Rect.mem_set_unit]
  exact Iff.rfl

theorem cover2_3_arr (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, -, -, e0, e1⟩ := idx_facts2 t
  refine ⟨t, flush2_3 t, ?_⟩
  rw [mem_blk2_3]
  intro a
  match a with
  | ⟨0, _⟩ =>
    show win2_3.index t (0 : Fin 2) * 10000 ≤ (i 0).val ∧ (i 0).val < win2_3.index t (0 : Fin 2) * 10000 + 10000
    rw [e0]; show (i 0).val / 10000 * 10000 ≤ (i 0).val ∧ (i 0).val < (i 0).val / 10000 * 10000 + 10000; omega
  | ⟨1, _⟩ =>
    show win2_3.index t (1 : Fin 2) * 64 ≤ (i 1).val ∧ (i 1).val < win2_3.index t (1 : Fin 2) * 64 + 64
    rw [e1]; omega

theorem arr2_3 (c : Dev nD) :
    (dat2 (F := Ideal) V c).arrAt 3 cfg2.N
      = Cert.Spec.layer (n := 100000) (k := 64) (p := 64) (V c main_v58 : S100000x64.Idx → Elt Ideal .f32)
          (V c main_v59 : S1x64.Idx → Elt Ideal .f32) (V c main_arg7 : S64x64.Idx → Elt Ideal .f32) :=
  (dat2 V c).arrAt_eq_of_cover 3 _ (fun t _ => flushed2_3_eq V c t) cover2_3_arr

end Region2Value

end Cert.KernelIdeal.Hand

end
-- ==== Proof.Val3Pay.lean ====
import proofs.«413861_j21509196218552_2_alg».proof.Proof.Gen.KernelIdeal.Skeleton
import proofs.«413861_j21509196218552_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sitofp_cmpi_eq (x y : BitVec 32) :
    (FloatOps.sitofp (F := Ideal) .f32 ((IntOp.cmpi .eq x y).setWidth 32) : EReal) = if x = y then 1 else 0 := by
  by_cases h : x = y
  · subst h
    have e : IntOp.cmpi .eq x x = 1#1 := by simp [IntOp.cmpi]
    rw [e, if_pos rfl]
    show ((((1#1 : BitVec 1).setWidth 32).toInt : ℝ) : EReal) = 1
    have e1 : ((1#1 : BitVec 1).setWidth 32).toInt = 1 := by decide
    rw [e1]; simp
  · have e : IntOp.cmpi .eq x y = 0#1 := by simp [IntOp.cmpi, beq_eq_false_iff_ne.mpr h]
    rw [e, if_neg h]
    show ((((0#1 : BitVec 1).setWidth 32).toInt : ℝ) : EReal) = 0
    have e0 : ((0#1 : BitVec 1).setWidth 32).toInt = 0 := by decide
    rw [e0]; simp

theorem mmS_lhs_0 (j : S128x64.Idx) (q : dot_S10000x128_S10000x64_S128x64_0_0_1_1_n_n.contr.Idx) :
    (dot_S10000x128_S10000x64_S128x64_0_0_1_1_n_n.lhsIdx j q 0).val = (q ⟨0, by decide⟩).val :=
  dot_S10000x128_S10000x64_S128x64_0_0_1_1_n_n.lhsIdx_val_of_single rfl j q
theorem mmS_lhs_1 (j : S128x64.Idx) (q : dot_S10000x128_S10000x64_S128x64_0_0_1_1_n_n.contr.Idx) :
    (dot_S10000x128_S10000x64_S128x64_0_0_1_1_n_n.lhsIdx j q 1).val = (j 0).val := by
  unfold DotDims.lhsIdx
  rw [dif_neg (show ¬(1 : Fin S10000x128.rank) ∈ dot_S10000x128_S10000x64_S128x64_0_0_1_1_n_n.lhsBatch by decide), dif_pos (show (1 : Fin S10000x128.rank) ∈ dot_S10000x128_S10000x64_S128x64_0_0_1_1_n_n.lhsNonContracting by decide)]
  rfl
theorem mmS_rhs_0 (j : S128x64.Idx) (q : dot_S10000x128_S10000x64_S128x64_0_0_1_1_n_n.contr.Idx) :
    (dot_S10000x128_S10000x64_S128x64_0_0_1_1_n_n.rhsIdx j q 0).val = (q ⟨0, by decide⟩).val :=
  dot_S10000x128_S10000x64_S128x64_0_0_1_1_n_n.rhsIdx_val_of_single rfl j q
theorem mmS_rhs_1 (j : S128x64.Idx) (q : dot_S10000x128_S10000x64_S128x64_0_0_1_1_n_n.contr.Idx) :
    (dot_S10000x128_S10000x64_S128x64_0_0_1_1_n_n.rhsIdx j q 1).val = (j 1).val := by
  unfold DotDims.rhsIdx
  rw [dif_neg (show ¬(1 : Fin S10000x64.rank) ∈ dot_S10000x128_S10000x64_S128x64_0_0_1_1_n_n.rhsBatch by decide), dif_pos (show (1 : Fin S10000x64.rank) ∈ dot_S10000x128_S10000x64_S128x64_0_0_1_1_n_n.rhsNonContracting by decide)]
  rfl

theorem mmC_lhs_0 (j : S128x1.Idx) (q : dot_S10000x128_S10000x1_S128x1_0_0_1_1_n_n.contr.Idx) :
    (dot_S10000x128_S10000x1_S128x1_0_0_1_1_n_n.lhsIdx j q 0).val = (q ⟨0, by decide⟩).val :=
  dot_S10000x128_S10000x1_S128x1_0_0_1_1_n_n.lhsIdx_val_of_single rfl j q
theorem mmC_lhs_1 (j : S128x1.Idx) (q : dot_S10000x128_S10000x1_S128x1_0_0_1_1_n_n.contr.Idx) :
    (dot_S10000x128_S10000x1_S128x1_0_0_1_1_n_n.lhsIdx j q 1).val = (j 0).val := by
  unfold DotDims.lhsIdx
  rw [dif_neg (show ¬(1 : Fin S10000x128.rank) ∈ dot_S10000x128_S10000x1_S128x1_0_0_1_1_n_n.lhsBatch by decide), dif_pos (show (1 : Fin S10000x128.rank) ∈ dot_S10000x128_S10000x1_S128x1_0_0_1_1_n_n.lhsNonContracting by decide)]
  rfl
theorem mmC_rhs_0 (j : S128x1.Idx) (q : dot_S10000x128_S10000x1_S128x1_0_0_1_1_n_n.contr.Idx) :
    (dot_S10000x128_S10000x1_S128x1_0_0_1_1_n_n.rhsIdx j q 0).val = (q ⟨0, by decide⟩).val :=
  dot_S10000x128_S10000x1_S128x1_0_0_1_1_n_n.rhsIdx_val_of_single rfl j q
theorem mmC_rhs_1 (j : S128x1.Idx) (q : dot_S10000x128_S10000x1_S128x1_0_0_1_1_n_n.contr.Idx) :
    (dot_S10000x128_S10000x1_S128x1_0_0_1_1_n_n.rhsIdx j q 1).val = (j 1).val := by
  unfold DotDims.rhsIdx
  rw [dif_neg (show ¬(1 : Fin S10000x1.rank) ∈ dot_S10000x128_S10000x1_S128x1_0_0_1_1_n_n.rhsBatch by decide), dif_pos (show (1 : Fin S10000x1.rank) ∈ dot_S10000x128_S10000x1_S128x1_0_0_1_1_n_n.rhsNonContracting by decide)]
  rfl

theorem mmH1_lhs_0 (j : S128x128.Idx) (q : dot_S128x64_S64x128_S128x128_1_0_0_1_n_n.contr.Idx) :
    (dot_S128x64_S64x128_S128x128_1_0_0_1_n_n.lhsIdx j q 0).val = (j 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
theorem mmH1_lhs_1 (j : S128x128.Idx) (q : dot_S128x64_S64x128_S128x128_1_0_0_1_n_n.contr.Idx) :
    (dot_S128x64_S64x128_S128x128_1_0_0_1_n_n.lhsIdx j q 1).val = (q ⟨0, by decide⟩).val :=
  dot_S128x64_S64x128_S128x128_1_0_0_1_n_n.lhsIdx_val_of_single rfl j q
theorem mmH1_rhs_0 (j : S128x128.Idx) (q : dot_S128x64_S64x128_S128x128_1_0_0_1_n_n.contr.Idx) :
    (dot_S128x64_S64x128_S128x128_1_0_0_1_n_n.rhsIdx j q 0).val = (q ⟨0, by decide⟩).val :=
  dot_S128x64_S64x128_S128x128_1_0_0_1_n_n.rhsIdx_val_of_single rfl j q
theorem mmH1_rhs_1 (j : S128x128.Idx) (q : dot_S128x64_S64x128_S128x128_1_0_0_1_n_n.contr.Idx) :
    (dot_S128x64_S64x128_S128x128_1_0_0_1_n_n.rhsIdx j q 1).val = (j 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

theorem mmH2_lhs_0 (j : S128x1.Idx) (q : dot_S128x128_S128x1_S128x1_1_0_0_1_n_n.contr.Idx) :
    (dot_S128x128_S128x1_S128x1_1_0_0_1_n_n.lhsIdx j q 0).val = (j 0).val := by
  unfold DotDims.lhsIdx
  rw [dif_neg (show ¬(0 : Fin S128x128.rank) ∈ dot_S128x128_S128x1_S128x1_1_0_0_1_n_n.lhsBatch by decide), dif_pos (show (0 : Fin S128x128.rank) ∈ dot_S128x128_S128x1_S128x1_1_0_0_1_n_n.lhsNonContracting by decide)]
  rfl
theorem mmH2_lhs_1 (j : S128x1.Idx) (q : dot_S128x128_S128x1_S128x1_1_0_0_1_n_n.contr.Idx) :
    (dot_S128x128_S128x1_S128x1_1_0_0_1_n_n.lhsIdx j q 1).val = (q ⟨0, by decide⟩).val :=
  dot_S128x128_S128x1_S128x1_1_0_0_1_n_n.lhsIdx_val_of_single rfl j q
theorem mmH2_rhs_0 (j : S128x1.Idx) (q : dot_S128x128_S128x1_S128x1_1_0_0_1_n_n.contr.Idx) :
    (dot_S128x128_S128x1_S128x1_1_0_0_1_n_n.rhsIdx j q 0).val = (q ⟨0, by decide⟩).val :=
  dot_S128x128_S128x1_S128x1_1_0_0_1_n_n.rhsIdx_val_of_single rfl j q
theorem mmH2_rhs_1 (j : S128x1.Idx) (q : dot_S128x128_S128x1_S128x1_1_0_0_1_n_n.contr.Idx) :
    (dot_S128x128_S128x1_S128x1_1_0_0_1_n_n.rhsIdx j q 1).val = (j 1).val := by
  unfold DotDims.rhsIdx
  rw [dif_neg (show ¬(1 : Fin S128x1.rank) ∈ dot_S128x128_S128x1_S128x1_1_0_0_1_n_n.rhsBatch by decide), dif_pos (show (1 : Fin S128x1.rank) ∈ dot_S128x128_S128x1_S128x1_1_0_0_1_n_n.rhsNonContracting by decide)]
  rfl

theorem mmS_apply (A : FVec Ideal S10000x128 .bf16) (B : FVec Ideal S10000x64 .bf16) (a : Fin 128) (b : Fin 64) :
    matmul dot_S10000x128_S10000x64_S128x64_0_0_1_1_n_n none A B (constant S128x64 .f32 0x00000000#32) (ix2 a b) = ∑ c : Fin 10000, A (ix2 c a) * B (ix2 c b) := by
  simp only [matmul]
  rw [Ideal.matmul_constant_zero_apply, ← Equiv.sum_comp (contrEquiv1 dot_S10000x128_S10000x64_S128x64_0_0_1_1_n_n 10000 rfl rfl).symm]
  refine Finset.sum_congr rfl fun c _ => ?_
  have hc := contrEquiv1_symm_val dot_S10000x128_S10000x64_S128x64_0_0_1_1_n_n 10000 rfl rfl c
  have el : dot_S10000x128_S10000x64_S128x64_0_0_1_1_n_n.lhsIdx (ix2 a b) ((contrEquiv1 dot_S10000x128_S10000x64_S128x64_0_0_1_1_n_n 10000 rfl rfl).symm c) = ix2 c a := funext fun ax => Fin.ext (by
    match ax with
    | ⟨0, _⟩ => exact (mmS_lhs_0 _ _).trans hc
    | ⟨1, _⟩ => exact mmS_lhs_1 _ _)
  have er : dot_S10000x128_S10000x64_S128x64_0_0_1_1_n_n.rhsIdx (ix2 a b) ((contrEquiv1 dot_S10000x128_S10000x64_S128x64_0_0_1_1_n_n 10000 rfl rfl).symm c) = ix2 c b := funext fun ax => Fin.ext (by
    match ax with
    | ⟨0, _⟩ => exact (mmS_rhs_0 _ _).trans hc
    | ⟨1, _⟩ => exact mmS_rhs_1 _ _)
  rw [el, er]

theorem mmC_apply (A : FVec Ideal S10000x128 .bf16) (B : FVec Ideal S10000x1 .bf16) (a : Fin 128) (b : Fin 1) :
    matmul dot_S10000x128_S10000x1_S128x1_0_0_1_1_n_n none A B (constant S128x1 .f32 0x00000000#32) (ix2 a b) = ∑ c : Fin 10000, A (ix2 c a) * B (ix2 c b) := by
  simp only [matmul]
  rw [Ideal.matmul_constant_zero_apply, ← Equiv.sum_comp (contrEquiv1 dot_S10000x128_S10000x1_S128x1_0_0_1_1_n_n 10000 rfl rfl).symm]
  refine Finset.sum_congr rfl fun c _ => ?_
  have hc := contrEquiv1_symm_val dot_S10000x128_S10000x1_S128x1_0_0_1_1_n_n 10000 rfl rfl c
  have el : dot_S10000x128_S10000x1_S128x1_0_0_1_1_n_n.lhsIdx (ix2 a b) ((contrEquiv1 dot_S10000x128_S10000x1_S128x1_0_0_1_1_n_n 10000 rfl rfl).symm c) = ix2 c a := funext fun ax => Fin.ext (by
    match ax with
    | ⟨0, _⟩ => exact (mmC_lhs_0 _ _).trans hc
    | ⟨1, _⟩ => exact mmC_lhs_1 _ _)
  have er : dot_S10000x128_S10000x1_S128x1_0_0_1_1_n_n.rhsIdx (ix2 a b) ((contrEquiv1 dot_S10000x128_S10000x1_S128x1_0_0_1_1_n_n 10000 rfl rfl).symm c) = ix2 c b := funext fun ax => Fin.ext (by
    match ax with
    | ⟨0, _⟩ => exact (mmC_rhs_0 _ _).trans hc
    | ⟨1, _⟩ => exact mmC_rhs_1 _ _)
  rw [el, er]

theorem mmH1_apply (A : FVec Ideal S128x64 .bf16) (B : FVec Ideal S64x128 .bf16) (a : Fin 128) (b : Fin 128) :
    matmul dot_S128x64_S64x128_S128x128_1_0_0_1_n_n none A B (constant S128x128 .f32 0x00000000#32) (ix2 a b) = ∑ c : Fin 64, A (ix2 a c) * B (ix2 c b) := by
  simp only [matmul]
  rw [Ideal.matmul_constant_zero_apply, ← Equiv.sum_comp (contrEquiv1 dot_S128x64_S64x128_S128x128_1_0_0_1_n_n 64 rfl rfl).symm]
  refine Finset.sum_congr rfl fun c _ => ?_
  have hc := contrEquiv1_symm_val dot_S128x64_S64x128_S128x128_1_0_0_1_n_n 64 rfl rfl c
  have el : dot_S128x64_S64x128_S128x128_1_0_0_1_n_n.lhsIdx (ix2 a b) ((contrEquiv1 dot_S128x64_S64x128_S128x128_1_0_0_1_n_n 64 rfl rfl).symm c) = ix2 a c := funext fun ax => Fin.ext (by
    match ax with
    | ⟨0, _⟩ => exact mmH1_lhs_0 _ _
    | ⟨1, _⟩ => exact (mmH1_lhs_1 _ _).trans hc)
  have er : dot_S128x64_S64x128_S128x128_1_0_0_1_n_n.rhsIdx (ix2 a b) ((contrEquiv1 dot_S128x64_S64x128_S128x128_1_0_0_1_n_n 64 rfl rfl).symm c) = ix2 c b := funext fun ax => Fin.ext (by
    match ax with
    | ⟨0, _⟩ => exact (mmH1_rhs_0 _ _).trans hc
    | ⟨1, _⟩ => exact mmH1_rhs_1 _ _)
  rw [el, er]

theorem mmH2_apply (A : FVec Ideal S128x128 .bf16) (B : FVec Ideal S128x1 .bf16) (a : Fin 128) (b : Fin 1) :
    matmul dot_S128x128_S128x1_S128x1_1_0_0_1_n_n none A B (constant S128x1 .f32 0x00000000#32) (ix2 a b) = ∑ c : Fin 128, A (ix2 a c) * B (ix2 c b) := by
  simp only [matmul]
  rw [Ideal.matmul_constant_zero_apply, ← Equiv.sum_comp (contrEquiv1 dot_S128x128_S128x1_S128x1_1_0_0_1_n_n 128 rfl rfl).symm]
  refine Finset.sum_congr rfl fun c _ => ?_
  have hc := contrEquiv1_symm_val dot_S128x128_S128x1_S128x1_1_0_0_1_n_n 128 rfl rfl c
  have el : dot_S128x128_S128x1_S128x1_1_0_0_1_n_n.lhsIdx (ix2 a b) ((contrEquiv1 dot_S128x128_S128x1_S128x1_1_0_0_1_n_n 128 rfl rfl).symm c) = ix2 a c := funext fun ax => Fin.ext (by
    match ax with
    | ⟨0, _⟩ => exact mmH2_lhs_0 _ _
    | ⟨1, _⟩ => exact (mmH2_lhs_1 _ _).trans hc)
  have er : dot_S128x128_S128x1_S128x1_1_0_0_1_n_n.rhsIdx (ix2 a b) ((contrEquiv1 dot_S128x128_S128x1_S128x1_1_0_0_1_n_n 128 rfl rfl).symm c) = ix2 c b := funext fun ax => Fin.ext (by
    match ax with
    | ⟨0, _⟩ => exact (mmH2_rhs_0 _ _).trans hc
    | ⟨1, _⟩ => exact mmH2_rhs_1 _ _)
  rw [el, er]

theorem k3_pay2_eq : k3_pay2 (F := Ideal) = fun _ => (0 : EReal) := by
  funext i
  unfold k3_pay2
  rw [shapeCast_self]
  show Ideal.ofBits .f32 0x00000000#32 = 0
  exact Ideal.ofBits_zero_f32

theorem k3_pay3_eq : k3_pay3 (F := Ideal) = fun _ => (0 : EReal) := by
  funext i
  unfold k3_pay3
  rw [shapeCast_self]
  show Ideal.ofBits .f32 0x00000000#32 = 0
  exact Ideal.ofBits_zero_f32

theorem k3_pay4_apply (l : Vec Ideal S10000x1 .i32) (r : Fin 10000) (g : Fin 128) :
    k3_pay4 (F := Ideal) l (ix2 r g) = if l (ix2 r 0) = BitVec.ofNat 32 g.val then (1 : EReal) else 0 := by
  unfold k3_pay4
  show (FloatOps.sitofp (F := Ideal) .f32 ((IntOp.cmpi .eq
      (broadcastTo S10000x128 (shapeCast S10000x1 l shapeCasts_S10000x1_S10000x1) broadcasts_S10000x1_S10000x128 (ix2 r g))
      (iota .tc S10000x128 32 [1] iota_S10000x128_d1_w32 (ix2 r g))).setWidth 32) : EReal) = _
  rw [shapeCast_self, broadcastTo_a1_ab_apply, iota_single_apply, sitofp_cmpi_eq]

-- a product with the one-hot matrix of the labels is a sum over the rows whose label is the graph, since 0 · x = 0 and 1 · x = x for every extended real
theorem k3_pay5_apply (x0 : Vec Ideal S10000x64 .f32) (x1 : Vec Ideal S1x64 .f32) (l : Vec Ideal S10000x1 .i32) (s : Vec Ideal S128x64 .f32)
    (g : Fin 128) (q : Fin 64) :
    k3_pay5 (F := Ideal) x0 x1 l s (ix2 g q)
      = s (ix2 g q) + ∑ r : Fin 10000, if l (ix2 r 0) = BitVec.ofNat 32 g.val then max (x0 (ix2 r q) + x1 (ix2 0 q)) 0 else 0 := by
  unfold k3_pay5
  rw [shapeCast_self]
  show s (ix2 g q) + matmul dot_S10000x128_S10000x64_S128x64_0_0_1_1_n_n none (k3_pay4 (F := Ideal) l) _ (constant S128x64 .f32 0x00000000#32) (ix2 g q) = _
  rw [mmS_apply]
  refine congrArg (s (ix2 g q) + ·) (Finset.sum_congr rfl fun r _ => ?_)
  rw [k3_pay4_apply]
  show (if l (ix2 r 0) = BitVec.ofNat 32 g.val then (1 : EReal) else 0)
      * max (shapeCast S10000x64 x0 shapeCasts_S10000x64_S10000x64 (ix2 r q)
          + broadcastTo S10000x64 (shapeCast S1x64 x1 shapeCasts_S1x64_S1x64) broadcasts_S1x64_S10000x64 (ix2 r q)) (Ideal.ofBits .f32 0x00000000#32) = _
  rw [shapeCast_self, shapeCast_self, broadcastTo_1b_ab_apply, Ideal.ofBits_zero_f32, ite_mul, one_mul, zero_mul]

theorem k3_pay6_apply (l : Vec Ideal S10000x1 .i32) (s : Vec Ideal S128x1 .f32) (g : Fin 128) :
    k3_pay6 (F := Ideal) l s (ix2 g 0)
      = s (ix2 g 0) + ∑ r : Fin 10000, if l (ix2 r 0) = BitVec.ofNat 32 g.val then (1 : EReal) else 0 := by
  unfold k3_pay6
  rw [shapeCast_self]
  show s (ix2 g 0) + matmul dot_S10000x128_S10000x1_S128x1_0_0_1_1_n_n none (k3_pay4 (F := Ideal) l) _ (constant S128x1 .f32 0x00000000#32) (ix2 g 0) = _
  rw [mmC_apply]
  refine congrArg (s (ix2 g 0) + ·) (Finset.sum_congr rfl fun r _ => ?_)
  rw [k3_pay4_apply]
  show (if l (ix2 r 0) = BitVec.ofNat 32 g.val then (1 : EReal) else 0) * Ideal.ofBits .bf16 0x3F80#16 = _
  rw [Ideal.ofBits_one_bf16, mul_one]

theorem k3_pay1_eq (s : Vec Ideal S128x64 .f32) (cnt : Vec Ideal S128x1 .f32) (w1 : Vec Ideal S64x128 .f32) (b1 : Vec Ideal S1x128 .f32)
    (w2 : Vec Ideal S128x1 .f32) (b2 : Vec Ideal S1x1 .f32) :
    k3_pay1 (F := Ideal) s cnt w1 b1 w2 b2 = Cert.Spec.head s cnt w1 b1 w2 b2 := by
  funext i
  obtain ⟨g, z, rfl⟩ : ∃ (g : Fin 128) (z : Fin 1), i = ix2 g z := ⟨i 0, i 1, eq_ix2 i⟩
  show k3_pay1 (F := Ideal) s cnt w1 b1 w2 b2 (ix2 g z)
      = (∑ j : Fin 128, Cert.Spec.brelu (Cert.Spec.mm (Cert.Spec.meanOf s cnt) w1) b1 (ix2 g j) * w2 (ix2 j z)) + b2 (ix2 0 z)
  unfold k3_pay1
  simp only [shapeCast_self]
  show matmul (F := Ideal) dot_S128x128_S128x1_S128x1_1_0_0_1_n_n none _ _ (constant S128x1 .f32 0x00000000#32) (ix2 g z)
      + broadcastTo S128x1 b2 broadcasts_S1x1_S128x1 (ix2 g z) = _
  rw [mmH2_apply, broadcastTo_1b_ab_apply]
  refine congrArg (· + b2 (ix2 0 z)) (Finset.sum_congr rfl fun c _ => ?_)
  refine congrArg (· * w2 (ix2 c z)) ?_
  show max (matmul (F := Ideal) dot_S128x64_S64x128_S128x128_1_0_0_1_n_n none _ _ (constant S128x128 .f32 0x00000000#32) (ix2 g c)
      + broadcastTo S128x128 b1 broadcasts_S1x128_S128x128 (ix2 g c)) (Ideal.ofBits .f32 0x00000000#32)
    = max ((∑ e : Fin 64, Cert.Spec.meanOf s cnt (ix2 g e) * w1 (ix2 e c)) + b1 (ix2 0 c)) 0
  rw [mmH1_apply, broadcastTo_1b_ab_apply, Ideal.ofBits_zero_f32]
  refine congrArg (fun y => max (y + b1 (ix2 0 c)) 0) (Finset.sum_congr rfl fun e _ => ?_)
  refine congrArg (· * w1 (ix2 e c)) ?_
  show Ideal.div (s (ix2 g e)) (broadcastTo S128x64 (maximumf (F := Ideal) cnt (broadcast S128x1 (Scalar.ofBits .f32 0x3F800000#32))) broadcasts_S128x1_S128x64 (ix2 g e))
    = Ideal.div (s (ix2 g e)) (max (cnt (ix2 g 0)) 1)
  rw [broadcastTo_a1_ab_apply]
  show Ideal.div (s (ix2 g e)) (max (cnt (ix2 g 0)) (Ideal.ofBits .f32 0x3F800000#32)) = _
  rw [Ideal.ofBits_one_f32]

end Cert.KernelIdeal.Hand

end
-- ==== Proof.Val3Pieces.lean ====
import Idealize.ShloMosaic.Lib.Pipeline.Value
import proofs.«413861_j21509196218552_2_alg».proof.Proof.Reg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
theorem hz3 : (![0, 0] : Fin 2 → Nat) = fun _ => 0 := by funext a; fin_cases a <;> rfl

section Pieces
variable (c : Dev nD) (i : grid3.Coords) (arg1 : Memref sig .tc .vmem S10000x64 .f32) (harg1 : arg1.IsWhole) (arg2 : Memref sig .tc .vmem S1x64 .f32) (harg2 : arg2.IsWhole)
  (arg3 : Memref sig .tc .vmem S10000x1 .i32) (harg3 : arg3.IsWhole) (arg4 : Memref sig .tc .vmem S64x128 .f32) (harg4 : arg4.IsWhole) (arg5 : Memref sig .tc .vmem S1x128 .f32) (harg5 : arg5.IsWhole)
  (arg6 : Memref sig .tc .vmem S128x1 .f32) (harg6 : arg6.IsWhole) (arg7 : Memref sig .tc .vmem S1x1 .f32) (harg7 : arg7.IsWhole) (arg8 : Memref sig .tc .vmem S128x1 .f32) (harg8 : arg8.IsWhole)
  (arg9 : Memref sig .tc .vmem S128x64 .f32) (harg9 : arg9.IsWhole) (arg10 : Memref sig .tc .vmem S128x1 .f32) (harg10 : arg10.IsWhole)

section CaseA
variable (hc0 : cond3_0 i) (hc1 : ¬cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32)

theorem readA_sums :
    VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 hc0 hc1 x0 x1 x2 x3 x4 x5 x6).2.1) = k3_pay5 x0 x1 x2 (k3_pay2 (F := F)) := by
  rw [View.read_writes_eq_canon _ _ _ (scover3_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun3_A; dsimp only; sl_unfold_words
  rw [View.canon_cons_unit_zero (S := S128x64) hz3, View.readCov_unit_zero (S := S128x64) _ hz3]
  simp only [View.readAt_eq_ld, harg1.read_unread, harg2.read_unread, harg3.read_unread, View.ld_unit_zero (S := S10000x64) hz3, View.ld_unit_zero (S := S1x64) hz3, View.ld_unit_zero (S := S10000x1) hz3]

theorem readA_counts :
    VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 hc0 hc1 x0 x1 x2 x3 x4 x5 x6).2.2.1) = k3_pay6 x2 (k3_pay3 (F := F)) := by
  rw [View.read_writes_eq_canon _ _ _ (scover3_A_1 c i arg1 harg1 arg2 harg2 arg3 harg3 arg4 harg4 arg5 harg5 arg6 harg6 arg7 harg7 arg8 harg8 arg9 harg9 arg10 harg10 hc0 hc1 x0 x1 x2 x3 x4 x5 x6)]
  unfold kernelRun3_A; dsimp only; sl_unfold_words
  rw [View.canon_cons_unit_zero (S := S128x1) hz3, View.readCov_unit_zero (S := S128x1) _ hz3]
  simp only [View.readAt_eq_ld, harg3.read_unread, View.ld_unit_zero (S := S10000x1) hz3]

end CaseA

section CaseB
variable (hc0 : ¬cond3_0 i) (hc1 : ¬cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32)

theorem readB_sums :
    VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.1) = k3_pay5 x0 x1 x2 xs0 := by
  rw [View.read_writes_eq_canon _ _ _ (scover3_B_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun3_B; dsimp only; sl_unfold_words
  rw [View.canon_unit_zero (S := S128x64) hz3]
  simp only [View.readAt_eq_ld, harg1.read_unread, harg2.read_unread, harg3.read_unread, harg9.read_unread, View.ld_unit_zero (S := S10000x64) hz3, View.ld_unit_zero (S := S1x64) hz3, View.ld_unit_zero (S := S10000x1) hz3, View.ld_unit_zero (S := S128x64) hz3]

theorem readB_counts :
    VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 hc0 hc1 x0 x1 x2 x3 x4 x5 x6 xs0 xs1).2.2.1) = k3_pay6 x2 xs1 := by
  rw [View.read_writes_eq_canon _ _ _ (scover3_B_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun3_B; dsimp only; sl_unfold_words
  rw [View.canon_unit_zero (S := S128x1) hz3]
  simp only [View.readAt_eq_ld, harg3.read_unread, harg10.read_unread, View.ld_unit_zero (S := S10000x1) hz3, View.ld_unit_zero (S := S128x1) hz3]

end CaseB

section CaseC
variable (hc0 : ¬cond3_0 i) (hc1 : cond3_1 i) (x0 : Vec F S10000x64 .f32) (x1 : Vec F S1x64 .f32) (x2 : Vec F S10000x1 .i32) (x3 : Vec F S64x128 .f32) (x4 : Vec F S1x128 .f32) (x5 : Vec F S128x1 .f32) (x6 : Vec F S1x1 .f32) (xs0 : Vec F S128x64 .f32) (xs1 : Vec F S128x1 .f32)

theorem readC_sums :
    VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.1) = k3_pay5 x0 x1 x2 xs0 := by
  rw [View.read_writes_eq_canon _ _ _ (scover3_C_0 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun3_C; dsimp only; sl_unfold_words
  rw [View.canon_unit_zero (S := S128x64) hz3]
  simp only [View.readAt_eq_ld, harg1.read_unread, harg2.read_unread, harg3.read_unread, harg9.read_unread, View.ld_unit_zero (S := S10000x64) hz3, View.ld_unit_zero (S := S1x64) hz3, View.ld_unit_zero (S := S10000x1) hz3, View.ld_unit_zero (S := S128x64) hz3]

theorem readC_counts :
    VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).2.2.1) = k3_pay6 x2 xs1 := by
  rw [View.read_writes_eq_canon _ _ _ (scover3_C_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun3_C; dsimp only; sl_unfold_words
  rw [View.canon_unit_zero (S := S128x1) hz3]
  simp only [View.readAt_eq_ld, harg3.read_unread, harg10.read_unread, View.ld_unit_zero (S := S10000x1) hz3, View.ld_unit_zero (S := S128x1) hz3]

theorem readC_out :
    VO3_7.read (Elt F) (VO3_7.writes (Elt F) VO3_7.junk (kernelRun3_C c i arg1 harg1 arg2 harg2 arg3 harg3 arg4 harg4 arg5 harg5 arg6 harg6 arg7 harg7 arg8 harg8 arg9 harg9 arg10 harg10 hc0 hc1 x0 x1 x2 x3 x4 x5 x6 xs0 xs1).1) = k3_pay1 (k3_pay5 x0 x1 x2 xs0) (k3_pay6 x2 xs1) x3 x4 x5 x6 := by
  rw [View.read_writes_eq_canon _ _ _ (cover3_C_7 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun3_C; dsimp only; sl_unfold_words
  rw [View.canon_unit_zero (S := S128x1) hz3, View.readCov_unit_zero (S := S128x64) _ hz3, View.readCov_unit_zero (S := S128x1) _ hz3]
  simp only [View.readAt_eq_ld, harg1.read_unread, harg2.read_unread, harg3.read_unread, harg4.read_unread, harg5.read_unread, harg6.read_unread, harg7.read_unread, harg9.read_unread, harg10.read_unread, View.ld_unit_zero (S := S10000x64) hz3, View.ld_unit_zero (S := S1x64) hz3, View.ld_unit_zero (S := S10000x1) hz3, View.ld_unit_zero (S := S64x128) hz3, View.ld_unit_zero (S := S1x128) hz3, View.ld_unit_zero (S := S128x1) hz3, View.ld_unit_zero (S := S1x1) hz3, View.ld_unit_zero (S := S128x64) hz3]

end CaseC

end Pieces

end Cert.KernelIdeal.Hand

end
-- ==== Proof.Val3.lean ====
import proofs.«413861_j21509196218552_2_alg».proof.Proof.Reg3
import proofs.«413861_j21509196218552_2_alg».proof.Proof.Val3Pay
import proofs.«413861_j21509196218552_2_alg».proof.Proof.Val3Pieces
import proofs.«413861_j21509196218552_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

abbrev rowOfBlk (t : ℕ) (ht : t < 10) (r : Fin 10000) : Fin 100000 := ⟨10000 * t + r.val, by have := r.isLt; omega⟩

theorem sum_below_succ (f : Fin 100000 → EReal) (t : ℕ) (ht : t < 10) :
    (∑ R : Fin 100000, if R.val < 10000 * (t + 1) then f R else 0)
      = (∑ R : Fin 100000, if R.val < 10000 * t then f R else 0) + ∑ r : Fin 10000, f (rowOfBlk t ht r) := by
  have hsplit : ∀ R : Fin 100000, (if R.val < 10000 * (t + 1) then f R else 0)
      = (if R.val < 10000 * t then f R else 0) + (if 10000 * t ≤ R.val ∧ R.val < 10000 * (t + 1) then f R else 0) := by
    intro R
    by_cases h1 : R.val < 10000 * t
    · have h2 : R.val < 10000 * (t + 1) := by omega
      have h3 : ¬(10000 * t ≤ R.val ∧ R.val < 10000 * (t + 1)) := by omega
      rw [if_pos h1, if_pos h2, if_neg h3, add_zero]
    · by_cases h2 : R.val < 10000 * (t + 1)
      · have h3 : 10000 * t ≤ R.val ∧ R.val < 10000 * (t + 1) := by omega
        rw [if_neg h1, if_pos h2, if_pos h3, zero_add]
      · have h3 : ¬(10000 * t ≤ R.val ∧ R.val < 10000 * (t + 1)) := by omega
        rw [if_neg h1, if_neg h2, if_neg h3, add_zero]
  rw [Finset.sum_congr rfl (fun R _ => hsplit R), Finset.sum_add_distrib]
  refine congrArg (_ + ·) ?_
  let e : Fin 10000 ↪ Fin 100000 := ⟨rowOfBlk t ht, fun r r' h => by
    have hv : 10000 * t + r.val = 10000 * t + r'.val := congrArg Fin.val h
    exact Fin.ext (by omega)⟩
  have hset : (Finset.univ.filter fun R : Fin 100000 => 10000 * t ≤ R.val ∧ R.val < 10000 * (t + 1)) = Finset.univ.map e := by
    ext R
    simp only [Finset.mem_filter, Finset.mem_univ, true_and, Finset.mem_map]
    constructor
    · intro h
      exact ⟨⟨R.val - 10000 * t, by omega⟩, Fin.ext (by show 10000 * t + (R.val - 10000 * t) = R.val; omega)⟩
    · rintro ⟨r, rfl⟩
      have := r.isLt
      show 10000 * t ≤ 10000 * t + r.val ∧ 10000 * t + r.val < 10000 * (t + 1)
      omega
  rw [← Finset.sum_filter, hset, Finset.sum_map]
  rfl

theorem sum_below_zero (f : Fin 100000 → EReal) : (∑ R : Fin 100000, if R.val < 10000 * 0 then f R else 0) = 0 :=
  Finset.sum_eq_zero fun R _ => if_neg (by omega)

theorem sum_below_all (f : Fin 100000 → EReal) : (∑ R : Fin 100000, if R.val < 10000 * 10 then f R else 0) = ∑ R : Fin 100000, f R :=
  Finset.sum_congr rfl fun R _ => if_pos (by have := R.isLt; omega)

def partSum (lab : Cert.Spec.Lab 100000) (a : Cert.Spec.Mat 100000 64) (b : Cert.Spec.Mat 1 64) (n : ℕ) : Cert.Spec.Mat 128 64 :=
  fun i => ∑ R : Fin 100000, if R.val < 10000 * n then
    (if lab (ix2 R 0) = BitVec.ofNat 32 (i 0).val then Cert.Spec.brelu a b (ix2 R (i 1)) else 0) else 0

def partCount (lab : Cert.Spec.Lab 100000) (n : ℕ) : Cert.Spec.Mat 128 1 :=
  fun i => ∑ R : Fin 100000, if R.val < 10000 * n then
    (if lab (ix2 R 0) = BitVec.ofNat 32 (i 0).val then (1 : EReal) else 0) else 0

theorem partSum_zero (lab : Cert.Spec.Lab 100000) (a : Cert.Spec.Mat 100000 64) (b : Cert.Spec.Mat 1 64) :
    partSum lab a b 0 = fun _ => (0 : EReal) := funext fun i => sum_below_zero _

theorem partCount_zero (lab : Cert.Spec.Lab 100000) : partCount lab 0 = fun _ => (0 : EReal) := funext fun i => sum_below_zero _

theorem partSum_all (lab : Cert.Spec.Lab 100000) (a : Cert.Spec.Mat 100000 64) (b : Cert.Spec.Mat 1 64) :
    partSum lab a b 10 = Cert.Spec.segSum 128 lab (Cert.Spec.brelu a b) := funext fun i => sum_below_all _

theorem partCount_all (lab : Cert.Spec.Lab 100000) : partCount lab 10 = Cert.Spec.segCount 128 lab := funext fun i => sum_below_all _

theorem partSum_succ_apply (lab : Cert.Spec.Lab 100000) (a : Cert.Spec.Mat 100000 64) (b : Cert.Spec.Mat 1 64) (t : ℕ) (ht : t < 10)
    (g : Fin 128) (q : Fin 64) :
    partSum lab a b (t + 1) (ix2 g q) = partSum lab a b t (ix2 g q)
      + ∑ r : Fin 10000, if lab (ix2 (rowOfBlk t ht r) 0) = BitVec.ofNat 32 g.val then max (a (ix2 (rowOfBlk t ht r) q) + b (ix2 0 q)) 0 else 0 :=
  sum_below_succ (fun R => if lab (ix2 R 0) = BitVec.ofNat 32 g.val then Cert.Spec.brelu a b (ix2 R q) else 0) t ht

theorem partCount_succ_apply (lab : Cert.Spec.Lab 100000) (t : ℕ) (ht : t < 10) (g : Fin 128) :
    partCount lab (t + 1) (ix2 g 0) = partCount lab t (ix2 g 0)
      + ∑ r : Fin 10000, if lab (ix2 (rowOfBlk t ht r) 0) = BitVec.ofNat 32 g.val then (1 : EReal) else 0 :=
  sum_below_succ (fun R => if lab (ix2 R 0) = BitVec.ofNat 32 g.val then (1 : EReal) else 0) t ht

section Blocks
variable (V : (c : Dev nD) → (b : Ref sig .tc) → Buf (Elt Ideal) ((c : Thread nD τ).loc b))

abbrev agg3 (c : Dev nD) : Vec Ideal S100000x64 .f32 := V c main_v73
abbrev bias3 (c : Dev nD) : Vec Ideal S1x64 .f32 := V c main_v75
abbrev lab3 (c : Dev nD) : Vec Ideal S100000x1 .i32 := V c main_v74
abbrev w1a3 (c : Dev nD) : Vec Ideal S64x128 .f32 := V c main_arg9
abbrev b1a3 (c : Dev nD) : Vec Ideal S1x128 .f32 := V c main_v76
abbrev w2a3 (c : Dev nD) : Vec Ideal S128x1 .f32 := V c main_arg11
abbrev b2a3 (c : Dev nD) : Vec Ideal S1x1 .f32 := V c main_v77

abbrev xb3 (c : Dev nD) (t : Fin cfg3.N) : Vec Ideal S10000x64 .f32 := iblk3 V c 0 t
abbrev bb3 (c : Dev nD) (t : Fin cfg3.N) : Vec Ideal S1x64 .f32 := iblk3 V c 1 t
abbrev lb3 (c : Dev nD) (t : Fin cfg3.N) : Vec Ideal S10000x1 .i32 := iblk3 V c 2 t
abbrev w1b3 (c : Dev nD) (t : Fin cfg3.N) : Vec Ideal S64x128 .f32 := iblk3 V c 3 t
abbrev b1b3 (c : Dev nD) (t : Fin cfg3.N) : Vec Ideal S1x128 .f32 := iblk3 V c 4 t
abbrev w2b3 (c : Dev nD) (t : Fin cfg3.N) : Vec Ideal S128x1 .f32 := iblk3 V c 5 t
abbrev b2b3 (c : Dev nD) (t : Fin cfg3.N) : Vec Ideal S1x1 .f32 := iblk3 V c 6 t

theorem lt10_3 (t : Fin cfg3.N) : t.val < 10 := lt_of_lt_of_eq t.isLt (show cfg3.N = 10 from N_3)

theorem idx_facts3 : ∀ t : Fin cfg3.N, win3_0.index t (0 : Fin 2) = t.val ∧ win3_0.index t (1 : Fin 2) = 0
    ∧ win3_2.index t (0 : Fin 2) = t.val ∧ win3_2.index t (1 : Fin 2) = 0
    ∧ win3_1.index t (0 : Fin 2) = 0 ∧ win3_1.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

theorem xb3_apply (c : Dev nD) (t : Fin cfg3.N) (r : Fin 10000) (q : Fin 64) :
    xb3 V c t (ix2 r q) = agg3 V c (ix2 (rowOfBlk t.val (lt10_3 t) r) q) := by
  obtain ⟨e0, e1, -⟩ := idx_facts3 t
  show V c main_v73 (((cfg3.win 0).blk t).view.emb (ix2 r q)) = V c main_v73 (ix2 (rowOfBlk t.val (lt10_3 t) r) q)
  refine congrArg _ (funext fun a => Fin.ext ?_)
  match a with
  | ⟨0, _⟩ => show win3_0.index t (0 : Fin 2) * 10000 + 1 * r.val = 10000 * t.val + r.val; rw [e0]; omega
  | ⟨1, _⟩ => show win3_0.index t (1 : Fin 2) * 64 + 1 * q.val = q.val; rw [e1]; omega

theorem lb3_apply (c : Dev nD) (t : Fin cfg3.N) (r : Fin 10000) :
    lb3 V c t (ix2 r 0) = lab3 V c (ix2 (rowOfBlk t.val (lt10_3 t) r) 0) := by
  obtain ⟨-, -, e0, e1, -⟩ := idx_facts3 t
  show V c main_v74 (((cfg3.win 2).blk t).view.emb (ix2 r 0)) = V c main_v74 (ix2 (rowOfBlk t.val (lt10_3 t) r) 0)
  refine congrArg _ (funext fun a => Fin.ext ?_)
  match a with
  | ⟨0, _⟩ => show win3_2.index t (0 : Fin 2) * 10000 + 1 * r.val = 10000 * t.val + r.val; rw [e0]; omega
  | ⟨1, _⟩ => show win3_2.index t (1 : Fin 2) * 1 + 1 * 0 = 0; rw [e1]

theorem bb3_eq (c : Dev nD) (t : Fin cfg3.N) : bb3 V c t = bias3 V c := by
  obtain ⟨-, -, -, -, e0, e1, -⟩ := idx_facts3 t
  funext x
  show V c main_v75 (((cfg3.win 1).blk t).view.emb x) = V c main_v75 x
  refine congrArg _ (funext fun a => Fin.ext ?_)
  match a with
  | ⟨0, _⟩ => show win3_1.index t (0 : Fin 2) * 1 + 1 * (x 0).val = (x 0).val; rw [e0]; omega
  | ⟨1, _⟩ => show win3_1.index t (1 : Fin 2) * 64 + 1 * (x 1).val = (x 1).val; rw [e1]; omega

theorem w1b3_eq (c : Dev nD) (t : Fin cfg3.N) : w1b3 V c t = w1a3 V c := by
  obtain ⟨-, -, -, -, -, -, e0, e1, -⟩ := idx_facts3 t
  funext x
  show V c main_arg9 (((cfg3.win 3).blk t).view.emb x) = V c main_arg9 x
  refine congrArg _ (funext fun a => Fin.ext ?_)
  match a with
  | ⟨0, _⟩ => show win3_3.index t (0 : Fin 2) * 64 + 1 * (x 0).val = (x 0).val; rw [e0]; omega
  | ⟨1, _⟩ => show win3_3.index t (1 : Fin 2) * 128 + 1 * (x 1).val = (x 1).val; rw [e1]; omega

theorem b1b3_eq (c : Dev nD) (t : Fin cfg3.N) : b1b3 V c t = b1a3 V c := by
  obtain ⟨-, -, -, -, -, -, -, -, e0, e1, -⟩ := idx_facts3 t
  funext x
  show V c main_v76 (((cfg3.win 4).blk t).view.emb x) = V c main_v76 x
  refine congrArg _ (funext fun a => Fin.ext ?_)
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

theorem w2b3_eq (c : Dev nD) (t : Fin cfg3.N) : w2b3 V c t = w2a3 V c := by
  obtain ⟨-, -, -, -, -, -, -, -, -, -, e0, e1, -⟩ := idx_facts3 t
  funext x
  show V c main_arg11 (((cfg3.win 5).blk t).view.emb x) = V c main_arg11 x
  refine congrArg _ (funext fun a => Fin.ext ?_)
  match a with
  | ⟨0, _⟩ => show win3_5.index t (0 : Fin 2) * 128 + 1 * (x 0).val = (x 0).val; rw [e0]; omega
  | ⟨1, _⟩ => show win3_5.index t (1 : Fin 2) * 1 + 1 * (x 1).val = (x 1).val; rw [e1]; omega

theorem b2b3_eq (c : Dev nD) (t : Fin cfg3.N) : b2b3 V c t = b2a3 V c := by
  obtain ⟨-, -, -, -, -, -, -, -, -, -, -, -, e0, e1, -⟩ := idx_facts3 t
  funext x
  show V c main_v77 (((cfg3.win 6).blk t).view.emb x) = V c main_v77 x
  refine congrArg _ (funext fun a => Fin.ext ?_)
  match a with
  | ⟨0, _⟩ => show win3_6.index t (0 : Fin 2) * 1 + 1 * (x 0).val = (x 0).val; rw [e0]; omega
  | ⟨1, _⟩ => show win3_6.index t (1 : Fin 2) * 1 + 1 * (x 1).val = (x 1).val; rw [e1]; omega

theorem sums3_A (c : Dev nD) (t : Fin cfg3.N) (h0 : t.val % 10 = 0) (h1 : ¬t.val % 10 = 9) :
    (outsAt3 V c t.val t.isLt).2.1 = k3_pay5 (xb3 V c t) (bb3 V c t) (lb3 V c t) (k3_pay2 (F := Ideal)) := by
  rw [outsAt3_A V c t h0 h1]; unfold ptA; dsimp only
  unfold sout3_A_0
  exact readA_sums (F := Ideal) c _ _ _ _ _ _ _ _ _ _ _ _ _ _ _ _ _ _ _ _ _ _ _ _ _ _ _ _ _ _

theorem counts3_A (c : Dev nD) (t : Fin cfg3.N) (h0 : t.val % 10 = 0) (h1 : ¬t.val % 10 = 9) :
    (outsAt3 V c t.val t.isLt).2.2 = k3_pay6 (lb3 V c t) (k3_pay3 (F := Ideal)) := by
  rw [outsAt3_A V c t h0 h1]; unfold ptA; dsimp only
  unfold sout3_A_1
  exact readA_counts (F := Ideal) c _ _ _ _ _ _ _ _ _ _ _ _ _ _ _ _ _ _ _ _ _ _ _ _ _ _ _ _ _ _

theorem sums3_B (c : Dev nD) (t : Fin cfg3.N) (h0 : ¬t.val % 10 = 0) (h1 : ¬t.val % 10 = 9) :
    (outsAt3 V c t.val t.isLt).2.1 = k3_pay5 (xb3 V c t) (bb3 V c t) (lb3 V c t) (outsAt3 V c (t.val - 1) (Nat.lt_of_le_of_lt (Nat.sub_le _ _) t.isLt)).2.1 := by
  rw [outsAt3_B V c t h0 h1]; unfold ptB; dsimp only
  unfold sout3_B_0
  exact readB_sums (F := Ideal) c _ _ _ _ _ _ _ _ _ _ _ _ _ _ _ _ _ _ _ _ _ _ _ _ _ _ _ _ _ _ _ _

theorem counts3_B (c : Dev nD) (t : Fin cfg3.N) (h0 : ¬t.val % 10 = 0) (h1 : ¬t.val % 10 = 9) :
    (outsAt3 V c t.val t.isLt).2.2 = k3_pay6 (lb3 V c t) (outsAt3 V c (t.val - 1) (Nat.lt_of_le_of_lt (Nat.sub_le _ _) t.isLt)).2.2 := by
  rw [outsAt3_B V c t h0 h1]; unfold ptB; dsimp only
  unfold sout3_B_1
  exact readB_counts (F := Ideal) c _ _ _ _ _ _ _ _ _ _ _ _ _ _ _ _ _ _ _ _ _ _ _ _ _ _ _ _ _ _ _ _

theorem sums3_C (c : Dev nD) (t : Fin cfg3.N) (h0 : ¬t.val % 10 = 0) (h1 : t.val % 10 = 9) :
    (outsAt3 V c t.val t.isLt).2.1 = k3_pay5 (xb3 V c t) (bb3 V c t) (lb3 V c t) (outsAt3 V c (t.val - 1) (Nat.lt_of_le_of_lt (Nat.sub_le _ _) t.isLt)).2.1 := by
  rw [outsAt3_C V c t h0 h1]; unfold ptC; dsimp only
  unfold sout3_C_0
  exact readC_sums (F := Ideal) c _ _ _ _ _ _ _ _ _ _ _ _ _ _ _ _ _ _ _ _ _ _ _ _ _ _ _ _ _ _ _ _

theorem counts3_C (c : Dev nD) (t : Fin cfg3.N) (h0 : ¬t.val % 10 = 0) (h1 : t.val % 10 = 9) :
    (outsAt3 V c t.val t.isLt).2.2 = k3_pay6 (lb3 V c t) (outsAt3 V c (t.val - 1) (Nat.lt_of_le_of_lt (Nat.sub_le _ _) t.isLt)).2.2 := by
  rw [outsAt3_C V c t h0 h1]; unfold ptC; dsimp only
  unfold sout3_C_1
  exact readC_counts (F := Ideal) c _ _ _ _ _ _ _ _ _ _ _ _ _ _ _ _ _ _ _ _ _ _ _ _ _ _ _ _ _ _ _ _

theorem out3_C (c : Dev nD) (t : Fin cfg3.N) (h0 : ¬t.val % 10 = 0) (h1 : t.val % 10 = 9) :
    (outsAt3 V c t.val t.isLt).1
      = k3_pay1 (k3_pay5 (xb3 V c t) (bb3 V c t) (lb3 V c t) (outsAt3 V c (t.val - 1) (Nat.lt_of_le_of_lt (Nat.sub_le _ _) t.isLt)).2.1) (k3_pay6 (lb3 V c t) (outsAt3 V c (t.val - 1) (Nat.lt_of_le_of_lt (Nat.sub_le _ _) t.isLt)).2.2)
          (w1b3 V c t) (b1b3 V c t) (w2b3 V c t) (b2b3 V c t) := by
  rw [outsAt3_C V c t h0 h1]; unfold ptC; dsimp only
  unfold out3_C_7
  exact readC_out (F := Ideal) c _ _ _ _ _ _ _ _ _ _ _ _ _ _ _ _ _ _ _ _ _ _ _ _ _ _ _ _ _ _ _ _

theorem step_sums3 (c : Dev nD) (t : Fin cfg3.N) (xs : Vec Ideal S128x64 .f32)
    (hxs : xs = partSum (lab3 V c) (agg3 V c) (bias3 V c) t.val) :
    k3_pay5 (F := Ideal) (xb3 V c t) (bb3 V c t) (lb3 V c t) xs = partSum (lab3 V c) (agg3 V c) (bias3 V c) (t.val + 1) := by
  funext i
  obtain ⟨g, q, rfl⟩ : ∃ (g : Fin 128) (q : Fin 64), i = ix2 g q := ⟨i 0, i 1, eq_ix2 i⟩
  rw [k3_pay5_apply, partSum_succ_apply _ _ _ t.val (lt10_3 t), hxs]
  refine congrArg (_ + ·) (Finset.sum_congr rfl fun r _ => ?_)
  rw [lb3_apply, xb3_apply, bb3_eq]

theorem step_counts3 (c : Dev nD) (t : Fin cfg3.N) (xs : Vec Ideal S128x1 .f32)
    (hxs : xs = partCount (lab3 V c) t.val) :
    k3_pay6 (F := Ideal) (lb3 V c t) xs = partCount (lab3 V c) (t.val + 1) := by
  funext i
  obtain ⟨g, z, rfl⟩ : ∃ (g : Fin 128) (z : Fin 1), i = ix2 g z := ⟨i 0, i 1, eq_ix2 i⟩
  have hz : z = 0 := Fin.ext (by have := z.isLt; omega)
  subst hz
  rw [k3_pay6_apply, partCount_succ_apply _ t.val (lt10_3 t), hxs]
  refine congrArg (_ + ·) (Finset.sum_congr rfl fun r _ => ?_)
  rw [lb3_apply]

-- by induction on the point: each point adds its own block's rows to what the point before left
theorem acc3 (c : Dev nD) : ∀ (n : ℕ) (hn : n < cfg3.N),
    (outsAt3 V c n hn).2.1 = partSum (lab3 V c) (agg3 V c) (bias3 V c) (n + 1)
      ∧ (outsAt3 V c n hn).2.2 = partCount (lab3 V c) (n + 1) := by
  intro n
  induction n with
  | zero =>
    intro hn
    have h0 : (⟨0, hn⟩ : Fin cfg3.N).val % 10 = 0 := rfl
    have h1 : ¬(⟨0, hn⟩ : Fin cfg3.N).val % 10 = 9 := by show ¬(0 : ℕ) % 10 = 9; decide
    exact ⟨(sums3_A V c ⟨0, hn⟩ h0 h1).trans (step_sums3 V c ⟨0, hn⟩ _ (k3_pay2_eq.trans (partSum_zero _ _ _).symm)),
      (counts3_A V c ⟨0, hn⟩ h0 h1).trans (step_counts3 V c ⟨0, hn⟩ _ (k3_pay3_eq.trans (partCount_zero _).symm))⟩
  | succ n ih =>
    intro hn
    have hN : n + 1 < 10 := lt_of_lt_of_eq hn (show cfg3.N = 10 from N_3)
    obtain ⟨ihs, ihc⟩ := ih (Nat.lt_of_succ_lt hn)
    have h0 : ¬(⟨n + 1, hn⟩ : Fin cfg3.N).val % 10 = 0 := by show ¬(n + 1) % 10 = 0; omega
    by_cases h1 : (⟨n + 1, hn⟩ : Fin cfg3.N).val % 10 = 9
    · exact ⟨(sums3_C V c ⟨n + 1, hn⟩ h0 h1).trans (step_sums3 V c ⟨n + 1, hn⟩ _ ihs),
        (counts3_C V c ⟨n + 1, hn⟩ h0 h1).trans (step_counts3 V c ⟨n + 1, hn⟩ _ ihc)⟩
    · exact ⟨(sums3_B V c ⟨n + 1, hn⟩ h0 h1).trans (step_sums3 V c ⟨n + 1, hn⟩ _ ihs),
        (counts3_B V c ⟨n + 1, hn⟩ h0 h1).trans (step_counts3 V c ⟨n + 1, hn⟩ _ ihc)⟩

theorem out3_last (c : Dev nD) (t : Fin cfg3.N) (h1 : t.val % 10 = 9) :
    (outsAt3 V c t.val t.isLt).1
      = Cert.Spec.pool 128 (lab3 V c) (agg3 V c) (bias3 V c) (w1a3 V c) (b1a3 V c) (w2a3 V c) (b2a3 V c) := by
  have ht := lt10_3 t
  have h0 : ¬t.val % 10 = 0 := by omega
  have e10 : t.val + 1 = 10 := by omega
  obtain ⟨hs, hc⟩ := acc3 V c (t.val - 1) (Nat.lt_of_le_of_lt (Nat.sub_le _ _) t.isLt)
  rw [show t.val - 1 + 1 = t.val by omega] at hs hc
  have hS := step_sums3 V c t _ hs
  have hC := step_counts3 V c t _ hc
  rw [e10] at hS hC
  refine (out3_C V c t h0 h1).trans ?_
  rw [hS, hC, w1b3_eq, b1b3_eq, w2b3_eq, b2b3_eq, k3_pay1_eq, partSum_all, partCount_all]
  rfl

theorem flushed3_7_eq (c : Dev nD) (t : Fin cfg3.N) (hf : (cfg3.win 7).flush t = true) :
    (dat3 (F := Ideal) V c).flushed 7 t
      = ((cfg3.win 7).blk t).view.read (Elt Ideal)
          (Cert.Spec.pool 128 (lab3 V c) (agg3 V c) (bias3 V c) (w1a3 V c) (b1a3 V c) (w2a3 V c) (b2a3 V c)) := by
  have h1 : t.val % 10 = 9 := (flush3_7 t).mp hf
  show (cfg3.win 7).cut (grid3.coords t) ((dat3 V c).after 7 t) = _
  rw [after3_7, out3_last V c t h1]
  obtain ⟨-, -, -, -, -, -, -, -, -, -, -, -, -, -, e0, e1⟩ := idx_facts3 t
  funext y
  show Cert.Spec.pool 128 (lab3 V c) (agg3 V c) (bias3 V c) (w1a3 V c) (b1a3 V c) (w2a3 V c) (b2a3 V c) y
    = Cert.Spec.pool 128 (lab3 V c) (agg3 V c) (bias3 V c) (w1a3 V c) (b1a3 V c) (w2a3 V c) (b2a3 V c) (((cfg3.win 7).blk t).view.emb y)
  refine congrArg _ (funext fun a => Fin.ext ?_)
  match a with
  | ⟨0, _⟩ => show (y 0).val = win3_7.index t (0 : Fin 2) * 128 + 1 * (y 0).val; rw [e0]; omega
  | ⟨1, _⟩ => show (y 1).val = win3_7.index t (1 : Fin 2) * 1 + 1 * (y 1).val; rw [e1]; omega

theorem mem_blk3_7 (t : Fin cfg3.N) (i : S128x1.Idx) :
    i ∈ ((cfg3.win 7).blk t).view.set ↔ ∀ a : Fin 2, win3_7.index t a * S128x1.size a ≤ (i a).val ∧ (i a).val < win3_7.index t a * S128x1.size a + S128x1.size a := by
  show i ∈ ((View.whole main_v78).slice (win3_7.rect t)).set ↔ _
  rw [View.set_slice_whole, Rect.mem_set_unit]
  exact Iff.rfl

theorem cover3_7_arr (i : S128x1.Idx) :
    ∃ t : Fin cfg3.N, (cfg3.win 7).flush t = true ∧ i ∈ ((cfg3.win 7).blk t).view.set := by
  have hi0 : (i 0).val < 128 := (i 0).isLt
  have hi1 : (i 1).val < 1 := (i 1).isLt
  have h9 : 9 < cfg3.N := by rw [show cfg3.N = 10 from N_3]; decide
  obtain ⟨-, -, -, -, -, -, -, -, -, -, -, -, -, -, e0, e1⟩ := idx_facts3 ⟨9, h9⟩
  refine ⟨⟨9, h9⟩, (flush3_7 ⟨9, h9⟩).mpr rfl, ?_⟩
  rw [mem_blk3_7]
  intro a
  match a with
  | ⟨0, _⟩ => show win3_7.index ⟨9, h9⟩ (0 : Fin 2) * 128 ≤ (i 0).val ∧ (i 0).val < win3_7.index ⟨9, h9⟩ (0 : Fin 2) * 128 + 128; rw [e0]; omega
  | ⟨1, _⟩ => show win3_7.index ⟨9, h9⟩ (1 : Fin 2) * 1 ≤ (i 1).val ∧ (i 1).val < win3_7.index ⟨9, h9⟩ (1 : Fin 2) * 1 + 1; rw [e1]; omega

theorem arr3_7 (c : Dev nD) :
    (dat3 (F := Ideal) V c).arrAt 7 cfg3.N
      = Cert.Spec.pool 128 (V c main_v74 : S100000x1.Idx → Elt Ideal .i32) (V c main_v73 : S100000x64.Idx → Elt Ideal .f32)
          (V c main_v75 : S1x64.Idx → Elt Ideal .f32) (V c main_arg9 : S64x128.Idx → Elt Ideal .f32) (V c main_v76 : S1x128.Idx → Elt Ideal .f32)
          (V c main_arg11 : S128x1.Idx → Elt Ideal .f32) (V c main_v77 : S1x1.Idx → Elt Ideal .f32) :=
  (dat3 V c).arrAt_eq_of_cover 7 _ (fun t hf => flushed3_7_eq V c t hf) cover3_7_arr

end Blocks

end Cert.KernelIdeal.Hand

end
-- ==== Proof.KVal.lean ====
import proofs.«413861_j21509196218552_2_alg».proof.Proof.AsmDefs
import proofs.«413861_j21509196218552_2_alg».proof.Proof.KHost
import proofs.«413861_j21509196218552_2_alg».proof.Proof.KPre
import proofs.«413861_j21509196218552_2_alg».proof.Proof.Val0
import proofs.«413861_j21509196218552_2_alg».proof.Proof.Val1
import proofs.«413861_j21509196218552_2_alg».proof.Proof.Val2
import proofs.«413861_j21509196218552_2_alg».proof.Proof.Val3
import proofs.«413861_j21509196218552_2_alg».proof.Proof.Spec

set_option maxRecDepth 16384

noncomputable section

namespace Cert.KernelIdeal.Hand

open Idealize.ShloMosaic Idealize.ShloMosaic.TcCoe
open Idealize.SL.Sem
open Idealize.ShloMosaic.Pipeline (Dat)
open Cert.KernelIdeal Cert.KernelIdeal.Gen

variable (m : (ℓ : Loc nD τ sig) → Buf (Elt Ideal) ℓ) (c : Dev nD)

theorem Y3_v3 : Y3 m c main_v3 = srcK (m ((c : Thread nD τ).loc main_arg1)) := V3_v3 m c
theorem Y3_v6 : Y3 m c main_v6 = dstK (m ((c : Thread nD τ).loc main_arg1)) := V3_v6 m c
theorem Y3_v29 : Y3 m c main_v29 = normK (m ((c : Thread nD τ).loc main_arg1)) := V3_v29 m c

theorem X0_v30 : X0 m c main_v30 = (Cert.Spec.mm (n := 100000) (k := 3) (p := 64) (m ((c : Thread nD τ).loc main_arg0)) (m ((c : Thread nD τ).loc main_arg3))) := by
  refine (Pipeline.withArrays_arr spec0 launch0.win.arr_inj c (Y3 m c) (fun w => (dat0 (E0 m) c).arrAt w cfg0.N) 2).trans ?_
  refine (arr0_2 (E0 m) c).trans ?_
  show Cert.Spec.mm (n := 100000) (k := 3) (p := 64) (Y3 m c main_arg0) (Y3 m c main_arg3) = _
  rw [Y3_arg0, Y3_arg3]

theorem X1_v45 : X1 m c main_v45 = (Cert.Spec.layer (n := 100000) (k := 64) (p := 64) (aggK (srcK (m ((c : Thread nD τ).loc main_arg1))) (dstK (m ((c : Thread nD τ).loc main_arg1))) (normK (m ((c : Thread nD τ).loc main_arg1))) (Cert.Spec.mm (n := 100000) (k := 3) (p := 64) (m ((c : Thread nD τ).loc main_arg0)) (m ((c : Thread nD τ).loc main_arg3)))) (Cert.Spec.rowOf (k := 64) (m ((c : Thread nD τ).loc main_arg4))) (m ((c : Thread nD τ).loc main_arg5))) := by
  refine (Pipeline.withArrays_arr spec1 launch1.win.arr_inj c (Y5 m c) (fun w => (dat1 (E1 m) c).arrAt w cfg1.N) 3).trans ?_
  refine (arr1_3 (E1 m) c).trans ?_
  show Cert.Spec.layer (n := 100000) (k := 64) (p := 64) (Y5 m c main_v43) (Y5 m c main_v44) (Y5 m c main_arg5) = _
  rw [Y5_v43, Y5_v44, Y5_arg5, X0_v30, Y3_v3, Y3_v6, Y3_v29, rowOf_S64]

theorem X2_v60 : X2 m c main_v60 = (Cert.Spec.layer (n := 100000) (k := 64) (p := 64) (aggK (srcK (m ((c : Thread nD τ).loc main_arg1))) (dstK (m ((c : Thread nD τ).loc main_arg1))) (normK (m ((c : Thread nD τ).loc main_arg1))) (Cert.Spec.layer (n := 100000) (k := 64) (p := 64) (aggK (srcK (m ((c : Thread nD τ).loc main_arg1))) (dstK (m ((c : Thread nD τ).loc main_arg1))) (normK (m ((c : Thread nD τ).loc main_arg1))) (Cert.Spec.mm (n := 100000) (k := 3) (p := 64) (m ((c : Thread nD τ).loc main_arg0)) (m ((c : Thread nD τ).loc main_arg3)))) (Cert.Spec.rowOf (k := 64) (m ((c : Thread nD τ).loc main_arg4))) (m ((c : Thread nD τ).loc main_arg5)))) (Cert.Spec.rowOf (k := 64) (m ((c : Thread nD τ).loc main_arg6))) (m ((c : Thread nD τ).loc main_arg7))) := by
  refine (Pipeline.withArrays_arr spec2 launch2.win.arr_inj c (Y7 m c) (fun w => (dat2 (E2 m) c).arrAt w cfg2.N) 3).trans ?_
  refine (arr2_3 (E2 m) c).trans ?_
  show Cert.Spec.layer (n := 100000) (k := 64) (p := 64) (Y7 m c main_v58) (Y7 m c main_v59) (Y7 m c main_arg7) = _
  rw [Y7_v58, Y7_v59, Y7_arg7, X1_v45, Y3_v3, Y3_v6, Y3_v29, rowOf_S64]

theorem kernel_value :
    Gen.V10 m (outs m) c main_v78
      = Cert.Spec.pool (n := 100000) (k := 64) (d := 128) 128 (Cert.Spec.colOf (n := 100000) (m ((c : Thread nD τ).loc main_arg2))) (aggK (srcK (m ((c : Thread nD τ).loc main_arg1))) (dstK (m ((c : Thread nD τ).loc main_arg1))) (normK (m ((c : Thread nD τ).loc main_arg1))) (Cert.Spec.layer (n := 100000) (k := 64) (p := 64) (aggK (srcK (m ((c : Thread nD τ).loc main_arg1))) (dstK (m ((c : Thread nD τ).loc main_arg1))) (normK (m ((c : Thread nD τ).loc main_arg1))) (Cert.Spec.layer (n := 100000) (k := 64) (p := 64) (aggK (srcK (m ((c : Thread nD τ).loc main_arg1))) (dstK (m ((c : Thread nD τ).loc main_arg1))) (normK (m ((c : Thread nD τ).loc main_arg1))) (Cert.Spec.mm (n := 100000) (k := 3) (p := 64) (m ((c : Thread nD τ).loc main_arg0)) (m ((c : Thread nD τ).loc main_arg3)))) (Cert.Spec.rowOf (k := 64) (m ((c : Thread nD τ).loc main_arg4))) (m ((c : Thread nD τ).loc main_arg5)))) (Cert.Spec.rowOf (k := 64) (m ((c : Thread nD τ).loc main_arg6))) (m ((c : Thread nD τ).loc main_arg7))))
        (Cert.Spec.rowOf (k := 64) (m ((c : Thread nD τ).loc main_arg8))) (m ((c : Thread nD τ).loc main_arg9)) (Cert.Spec.rowOf (k := 128) (m ((c : Thread nD τ).loc main_arg10))) (m ((c : Thread nD τ).loc main_arg11)) (Cert.Spec.rowOf (k := 1) (m ((c : Thread nD τ).loc main_arg12))) := by
  have h : Gen.V10 m (outs m) c (Proc.devRef .tc main_v78) = X3 m c (Proc.devRef .tc main_v78) := Function.update_self _ _ _
  refine h.trans ?_
  refine (Pipeline.withArrays_arr spec3 launch3.win.arr_inj c (Y9 m c) (fun w => (dat3 (E3 m) c).arrAt w cfg3.N) 7).trans ?_
  refine (arr3_7 (E3 m) c).trans ?_
  show Cert.Spec.pool (n := 100000) (k := 64) (d := 128) 128 (Y9 m c main_v74) (Y9 m c main_v73) (Y9 m c main_v75)
    (Y9 m c main_arg9) (Y9 m c main_v76) (Y9 m c main_arg11) (Y9 m c main_v77) = _
  rw [Y9_v74, Y9_v73, Y9_v75, Y9_arg9, Y9_v76, Y9_arg11, Y9_v77, X2_v60, Y3_v3, Y3_v6, Y3_v29,
    colOf_S100000, rowOf_S64, rowOf_S128, rowOf_S1]

end Cert.KernelIdeal.Hand

end
-- ==== Proof.RefLayers.lean ====
import proofs.«413861_j21509196218552_2_alg».proof.Proof.RefReadP
import proofs.«413861_j21509196218552_2_alg».proof.Proof.Spec

set_option maxRecDepth 16384

noncomputable section

namespace Cert.ReferenceIdeal.RefSide

open Cert.ReferenceIdeal Cert.ReferenceIdeal.Gen Idealize.ShloMosaic Idealize.ShloMosaic.TcCoe Idealize.SL.Sem Idealize.ShloMosaic.StableHlo Idealize.ShloMosaic.ValueIdx

def srcR (ei : Vec Ideal S2x1600000 .i32) : Vec Ideal S1700000 .i32 := ReadP.val_main_v19 (F := Ideal) ei

def dstR (ei : Vec Ideal S2x1600000 .i32) : Vec Ideal S1700000 .i32 := ReadP.val_main_v6 (F := Ideal) ei

def normR (ei : Vec Ideal S2x1600000 .i32) : Vec Ideal S1700000 .f32 := ReadP.val_main_v29 (F := Ideal) ei

def aggR (ei : Vec Ideal S2x1600000 .i32) (h : Vec Ideal S100000x64 .f32) : Vec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 (dstR ei))
    (mulf (F := Ideal)
      (Host.gather gather_S100000x64_S1700000x1_S1700000x64_1_0_n_n_0_1_164 h
        (broadcastInDim S1700000x1 ![0] bcast_S1700000_S1700000x1_0 (srcR ei)))
      (broadcastInDim S1700000x64 ![0, 1] bcast_S1700000x1_S1700000x64_0_1
        (broadcastInDim S1700000x1 ![0] bcast_S1700000_S1700000x1_0 (normR ei))))

theorem val30_eq (x0 : Vec Ideal S100000x3 .f32) (x3 : Vec Ideal S3x64 .f32) :
    ReadP.val_main_v30 (F := Ideal) x0 x3 = Cert.Spec.mm x0 x3 := by
  funext i
  have el : ∀ k : Fin 3, ReadP.lidx_main_v30 i k = ix2 (i 0) k := fun k => funext fun a => Fin.ext (by match a with | ⟨0, _⟩ => rfl | ⟨1, _⟩ => rfl)
  have er : ∀ k : Fin 3, ReadP.ridx_main_v30 i k = ix2 k (i 1) := fun k => funext fun a => Fin.ext (by match a with | ⟨0, _⟩ => rfl | ⟨1, _⟩ => rfl)
  rw [ReadP.val_main_v30_apply]
  simp only [el, er]
  rfl

theorem val43_eq (x0 : Vec Ideal S100000x3 .f32) (x1 : Vec Ideal S2x1600000 .i32) (x3 : Vec Ideal S3x64 .f32) :
    ReadP.val_main_v43 (F := Ideal) x0 x1 x3 = aggR x1 (ReadP.val_main_v30 (F := Ideal) x0 x3) := rfl

-- the reference's dense stage of a middle layer; both middle layers unfold to this one function
def denseR (a : Vec Ideal S100000x64 .f32) (b : Vec Ideal S64 .f32) (w : Vec Ideal S64x64 .f32) : Vec Ideal S100000x64 .f32 :=
  ReadP.dot64 (maximumf (addf a (ReadP.val_main_v45 b)) (ReadP.val_main_call1_v0 (F := Ideal))) w

theorem denseR_eq (a : Vec Ideal S100000x64 .f32) (b : Vec Ideal S64 .f32) (w : Vec Ideal S64x64 .f32) :
    denseR a b w = Cert.Spec.layer a (Cert.Spec.rowOf b) w := by
  have hr : maximumf (addf a (ReadP.val_main_v45 b)) (ReadP.val_main_call1_v0 (F := Ideal)) = Cert.Spec.brelu a (Cert.Spec.rowOf b) := by
    funext j
    have eb : ReadP.idx_main_v44 (ReadP.idx_main_v45 j) = ix1 (j 1) :=
      funext fun a => Fin.ext (by match a with | ⟨0, _⟩ => rfl)
    show FloatOps.maximumf (FloatOps.addf (a j) (ReadP.val_main_v45 b j)) (ReadP.val_main_call1_v0 (F := Ideal) j) = _
    rw [ReadP.val_main_v45_apply, ReadP.val_main_v44_apply, ReadP.val_main_call1_v0_apply, ReadP.val_main_call1_cst_apply]
    simp only [eb, Ideal.maximumf_def, Ideal.addf_def, Ideal.ofBits_def, Ideal.ofBits_zero_f32]
    rfl
  funext i
  have el : ∀ k : Fin 64, ReadP.lidx_main_v48 i k = ix2 (i 0) k := fun k => funext fun a => Fin.ext (by match a with | ⟨0, _⟩ => rfl | ⟨1, _⟩ => rfl)
  have er : ∀ k : Fin 64, ReadP.ridx_main_v48 i k = ix2 k (i 1) := fun k => funext fun a => Fin.ext (by match a with | ⟨0, _⟩ => rfl | ⟨1, _⟩ => rfl)
  unfold denseR
  rw [ReadP.dot64_apply, hr]
  simp only [el, er]
  rfl

theorem val48_eq (x0 : Vec Ideal S100000x3 .f32) (x1 : Vec Ideal S2x1600000 .i32) (x3 : Vec Ideal S3x64 .f32) (x4 : Vec Ideal S64 .f32) (x5 : Vec Ideal S64x64 .f32) :
    ReadP.val_main_v48 (F := Ideal) x0 x1 x3 x4 x5
      = Cert.Spec.layer (ReadP.val_main_v43 (F := Ideal) x0 x1 x3) (Cert.Spec.rowOf x4) x5 :=
  denseR_eq (ReadP.val_main_v43 (F := Ideal) x0 x1 x3) x4 x5

theorem val61_eq (x0 : Vec Ideal S100000x3 .f32) (x1 : Vec Ideal S2x1600000 .i32) (x3 : Vec Ideal S3x64 .f32) (x4 : Vec Ideal S64 .f32) (x5 : Vec Ideal S64x64 .f32) :
    ReadP.val_main_v61 (F := Ideal) x0 x1 x3 x4 x5 = aggR x1 (ReadP.val_main_v48 (F := Ideal) x0 x1 x3 x4 x5) := rfl

theorem val66_eq (x0 : Vec Ideal S100000x3 .f32) (x1 : Vec Ideal S2x1600000 .i32) (x3 : Vec Ideal S3x64 .f32) (x4 : Vec Ideal S64 .f32) (x5 : Vec Ideal S64x64 .f32) (x6 : Vec Ideal S64 .f32) (x7 : Vec Ideal S64x64 .f32) :
    ReadP.val_main_v66 (F := Ideal) x0 x1 x3 x4 x5 x6 x7
      = Cert.Spec.layer (ReadP.val_main_v61 (F := Ideal) x0 x1 x3 x4 x5) (Cert.Spec.rowOf x6) x7 :=
  denseR_eq (ReadP.val_main_v61 (F := Ideal) x0 x1 x3 x4 x5) x6 x7

theorem val79_eq (x0 : Vec Ideal S100000x3 .f32) (x1 : Vec Ideal S2x1600000 .i32) (x3 : Vec Ideal S3x64 .f32) (x4 : Vec Ideal S64 .f32) (x5 : Vec Ideal S64x64 .f32) (x6 : Vec Ideal S64 .f32) (x7 : Vec Ideal S64x64 .f32) :
    ReadP.val_main_v79 (F := Ideal) x0 x1 x3 x4 x5 x6 x7
      = aggR x1 (ReadP.val_main_v66 (F := Ideal) x0 x1 x3 x4 x5 x6 x7) := rfl

theorem val79_spec (x0 : Vec Ideal S100000x3 .f32) (x1 : Vec Ideal S2x1600000 .i32) (x3 : Vec Ideal S3x64 .f32) (x4 : Vec Ideal S64 .f32) (x5 : Vec Ideal S64x64 .f32) (x6 : Vec Ideal S64 .f32) (x7 : Vec Ideal S64x64 .f32) :
    ReadP.val_main_v79 (F := Ideal) x0 x1 x3 x4 x5 x6 x7
      = aggR x1 (Cert.Spec.layer (aggR x1 (Cert.Spec.layer (aggR x1 (Cert.Spec.mm x0 x3)) (Cert.Spec.rowOf x4) x5))
          (Cert.Spec.rowOf x6) x7) := by
  rw [val79_eq, val66_eq, val61_eq, val48_eq, val43_eq, val30_eq]

end Cert.ReferenceIdeal.RefSide

end
-- ==== Proof.Bridge.lean ====
import proofs.«413861_j21509196218552_2_alg».proof.Proof.KPre
import proofs.«413861_j21509196218552_2_alg».proof.Proof.KHost
import proofs.«413861_j21509196218552_2_alg».proof.Proof.RefLayers

set_option maxRecDepth 16384

noncomputable section

namespace Cert.KernelIdeal.Hand

open Idealize.ShloMosaic Idealize.ShloMosaic.TcCoe
open Idealize.SL.Sem
open Cert.KernelIdeal Cert.KernelIdeal.Gen

variable {F : FTy → Type} [FloatOps F]

def aggW (src dst : Vec F S1700000 .i32) (norm : Vec F S1700000 .f32) (h : Vec F S100000x64 .f32) : Vec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h
        (broadcastInDim S1700000x1 ![0] bcast_S1700000_S1700000x1_0 src))
      (broadcastInDim S1700000x64 ![0, 1] bcast_S1700000x1_S1700000x64_0_1
        (broadcastInDim S1700000x1 ![0] bcast_S1700000_S1700000x1_0 norm)))

theorem aggK_eq_aggW (src dst : Vec F S1700000 .i32) (norm : Vec F S1700000 .f32) (h : Vec F S100000x64 .f32) :
    aggK src dst norm h = aggW (wrapK src) dst norm h := rfl

theorem aggR_eq_aggW (ei : Vec Ideal S2x1600000 .i32) (h : Vec Ideal S100000x64 .f32) :
    Cert.ReferenceIdeal.RefSide.aggR ei h
      = aggW (F := Ideal) (Cert.ReferenceIdeal.RefSide.srcR ei) (Cert.ReferenceIdeal.RefSide.dstR ei) (Cert.ReferenceIdeal.RefSide.normR ei) h := by
  unfold Cert.ReferenceIdeal.RefSide.aggR aggW
  rfl

-- the aggregation is the same operations in both programs, so it is carried as one function and never opened
theorem aggK_ref (ei : Vec Ideal S2x1600000 .i32) (h : Vec Ideal S100000x64 .f32) :
    aggK (F := Ideal) (srcK ei) (dstK ei) (normK ei) h = Cert.ReferenceIdeal.RefSide.aggR ei h := by
  rw [aggK_eq_aggW, aggR_eq_aggW, wrapK_src_ref, dstK_ref, normK_ref]
  rfl

end Cert.KernelIdeal.Hand

end
-- ==== Proof.LibRowGatherScatter.lean ====
import Idealize.ShloMosaic.Lib.ValueIdx
import Idealize.ShloMosaic.PureOps.Contract

noncomputable section

open scoped BigOperators

namespace Cert.LibRows

open Idealize.ShloMosaic Idealize.ShloMosaic.ValueIdx

section Scatter

abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowScatter_start0 (idx : IVec ⟨2, ![E, 1]⟩ w) (e : Fin E) (j : Fin C) :
    (rowScatter N E C wf).start (ix2 e j) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e j)
      ⟨List.idxOf (0 : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 (idx : IVec ⟨2, ![E, 1]⟩ w) (e : Fin E) (j : Fin C) :
    (rowScatter N E C wf).start (ix2 e j) idx (1 : Fin 2) = 0 := by
  unfold ScatterDims.start
  have h10 : (1 : Fin 2) ∉ ([0] : List (Fin 2)) := by decide
  rw [dif_neg (show (1 : Fin 2) ∉ (rowScatter N E C wf).scatterDimsToOperandDims from h10)]

theorem rowScatter_window0 (e : Fin E) (j : Fin C) : (rowScatter N E C wf).window (ix2 e j) (0 : Fin 2) = 0 := by
  unfold ScatterDims.window
  rw [dif_neg (show (0 : Fin 2) ∉ (rowScatter N E C wf).sKept from by
    simp [ScatterDims.sKept, Shape.kept, List.mem_filter, List.mem_finRange])]

theorem rowScatter_window1 (e : Fin E) (j : Fin C) : (rowScatter N E C wf).window (ix2 e j) (1 : Fin 2) = j.val := by
  unfold ScatterDims.window
  rw [dif_pos (show (1 : Fin 2) ∈ (rowScatter N E C wf).sKept from by
    simp [ScatterDims.sKept, Shape.kept, List.mem_filter, List.mem_finRange])]
  rfl

theorem rowScatter_resultIdx?_eq_some (idx : IVec ⟨2, ![E, 1]⟩ w) (e : Fin E) (j' : Fin C) (n : Fin N) (j : Fin C) :
    (rowScatter N E C wf).resultIdx? (ix2 e j') idx = some (ix2 n j)
      ↔ (idx (ix2 e (0 : Fin 1))).toInt = (n.val : ℤ) ∧ j' = j := by
  have hs0 := rowScatter_start0 wf idx e j'
  have hs1 := rowScatter_start1 wf idx e j'
  have hw0 := rowScatter_window0 wf e j'
  have hw1 := rowScatter_window1 wf e j'
  constructor
  · intro h
    unfold ScatterDims.resultIdx? at h
    split at h
    · rename_i hall
      have h' := Option.some.inj h
      have e0 : ((rowScatter N E C wf).start (ix2 e j') idx (0 : Fin 2)
          + ((rowScatter N E C wf).window (ix2 e j') (0 : Fin 2) : ℤ)).toNat = n.val :=
        congrArg (fun f => (f (0 : Fin 2)).val) h'
      have e1 : ((rowScatter N E C wf).start (ix2 e j') idx (1 : Fin 2)
          + ((rowScatter N E C wf).window (ix2 e j') (1 : Fin 2) : ℤ)).toNat = j.val :=
        congrArg (fun f => (f (1 : Fin 2)).val) h'
      have b0 := (hall (0 : Fin 2)).1
      rw [hs0, hw0] at e0 b0
      rw [hs1, hw1] at e1
      exact ⟨by omega, Fin.ext (by omega)⟩
    · exact absurd h (by simp)
  · rintro ⟨hn, rfl⟩
    unfold ScatterDims.resultIdx?
    have hall : ∀ a, 0 ≤ (rowScatter N E C wf).start (ix2 e j') idx a + ((rowScatter N E C wf).window (ix2 e j') a : ℤ)
        ∧ (rowScatter N E C wf).start (ix2 e j') idx a + ((rowScatter N E C wf).window (ix2 e j') a : ℤ)
          < (((⟨2, ![N, C]⟩ : Shape).size a : ℕ) : ℤ) := by
      intro a
      match a with
      | ⟨0, _⟩ =>
        show 0 ≤ (rowScatter N E C wf).start (ix2 e j') idx (0 : Fin 2)
            + ((rowScatter N E C wf).window (ix2 e j') (0 : Fin 2) : ℤ)
          ∧ (rowScatter N E C wf).start (ix2 e j') idx (0 : Fin 2)
            + ((rowScatter N E C wf).window (ix2 e j') (0 : Fin 2) : ℤ) < ((N : ℕ) : ℤ)
        rw [hs0, hw0, hn]; have := n.isLt; omega
      | ⟨1, _⟩ =>
        show 0 ≤ (rowScatter N E C wf).start (ix2 e j') idx (1 : Fin 2)
            + ((rowScatter N E C wf).window (ix2 e j') (1 : Fin 2) : ℤ)
          ∧ (rowScatter N E C wf).start (ix2 e j') idx (1 : Fin 2)
            + ((rowScatter N E C wf).window (ix2 e j') (1 : Fin 2) : ℤ) < ((C : ℕ) : ℤ)
        rw [hs1, hw1]; have := j'.isLt; omega
    rw [dif_pos hall]
    congr 1
    funext a
    refine Fin.ext ?_
    match a with
    | ⟨0, _⟩ =>
      show ((rowScatter N E C wf).start (ix2 e j') idx (0 : Fin 2)
          + ((rowScatter N E C wf).window (ix2 e j') (0 : Fin 2) : ℤ)).toNat = n.val
      rw [hs0, hw0, hn]; omega
    | ⟨1, _⟩ =>
      show ((rowScatter N E C wf).start (ix2 e j') idx (1 : Fin 2)
          + ((rowScatter N E C wf).window (ix2 e j') (1 : Fin 2) : ℤ)).toNat = j'.val
      rw [hs1, hw1]; omega

theorem scatterAdd_rows_apply (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowScatter N E C wf) x idx upd (ix2 n j)
      = x (ix2 n j) + ∑ e ∈ Finset.univ.filter (fun e : Fin E => (idx (ix2 e (0 : Fin 1))).toInt = (n.val : ℤ)),
          upd (ix2 e j) := by
  unfold Ideal.hostScatterAdd
  congr 1

  refine Finset.sum_nbij' (fun u : (⟨2, ![E, C]⟩ : Shape).Idx => (u 0 : Fin E)) (fun e : Fin E => ix2 e j) ?_ ?_ ?_ ?_ ?_
  · intro u hu
    obtain ⟨e, j', rfl⟩ : ∃ (e : Fin E) (j' : Fin C), u = ix2 e j' := ⟨u 0, u 1, eq_ix2 u⟩
    exact Finset.mem_filter.mpr ⟨Finset.mem_univ _,
      ((rowScatter_resultIdx?_eq_some wf idx e j' n j).mp (Finset.mem_filter.mp hu).2).1⟩
  · intro e he
    exact Finset.mem_filter.mpr ⟨Finset.mem_univ _,
      (rowScatter_resultIdx?_eq_some wf idx e j n j).mpr ⟨(Finset.mem_filter.mp he).2, rfl⟩⟩
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl
  · intro e _
    rfl
  · intro u hu
    obtain ⟨e, j', rfl⟩ : ∃ (e : Fin E) (j' : Fin C), u = ix2 e j' := ⟨u 0, u 1, eq_ix2 u⟩
    obtain ⟨-, rfl⟩ := (rowScatter_resultIdx?_eq_some wf idx e j' n j).mp (Finset.mem_filter.mp hu).2
    rfl

theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  exact scatterAdd_rows_apply wf x idx upd n j

end Scatter

end Cert.LibRows

end
-- ==== Proof.LibVecScatter.lean ====
import Idealize.ShloMosaic.Lib.ValueIdx
import Idealize.ShloMosaic.PureOps.Contract

noncomputable section

open scoped BigOperators

namespace Cert.LibRows

open Idealize.ShloMosaic Idealize.ShloMosaic.ValueIdx

section VecScatter

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vecScatter_start (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e)
      ⟨List.idxOf (0 : Fin 1) (vecScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window (e : Fin E) : (vecScatter N E wf).window (ix1 e) (0 : Fin 1) = 0 := by
  unfold ScatterDims.window
  rw [dif_neg (show (0 : Fin 1) ∉ (vecScatter N E wf).sKept from by
    simp [ScatterDims.sKept, Shape.kept, List.mem_filter, List.mem_finRange])]

theorem vecScatter_resultIdx?_eq_some (idx : IVec ⟨2, ![E, 1]⟩ w) (e : Fin E) (n : Fin N) :
    (vecScatter N E wf).resultIdx? (ix1 e) idx = some (ix1 n)
      ↔ (idx (ix2 e (0 : Fin 1))).toInt = (n.val : ℤ) := by
  have hs := vecScatter_start wf idx e
  have hw := vecScatter_window wf e
  constructor
  · intro h
    unfold ScatterDims.resultIdx? at h
    split at h
    · rename_i hall
      have h' := Option.some.inj h
      have e0 : ((vecScatter N E wf).start (ix1 e) idx (0 : Fin 1)
          + ((vecScatter N E wf).window (ix1 e) (0 : Fin 1) : ℤ)).toNat = n.val :=
        congrArg (fun f => (f (0 : Fin 1)).val) h'
      have b0 := (hall (0 : Fin 1)).1
      rw [hs, hw] at e0 b0
      omega
    · exact absurd h (by simp)
  · intro hn
    unfold ScatterDims.resultIdx?
    have hall : ∀ a, 0 ≤ (vecScatter N E wf).start (ix1 e) idx a + ((vecScatter N E wf).window (ix1 e) a : ℤ)
        ∧ (vecScatter N E wf).start (ix1 e) idx a + ((vecScatter N E wf).window (ix1 e) a : ℤ)
          < (((⟨1, ![N]⟩ : Shape).size a : ℕ) : ℤ) := by
      intro a
      match a with
      | ⟨0, _⟩ =>
        show 0 ≤ (vecScatter N E wf).start (ix1 e) idx (0 : Fin 1)
            + ((vecScatter N E wf).window (ix1 e) (0 : Fin 1) : ℤ)
          ∧ (vecScatter N E wf).start (ix1 e) idx (0 : Fin 1)
            + ((vecScatter N E wf).window (ix1 e) (0 : Fin 1) : ℤ) < ((N : ℕ) : ℤ)
        rw [hs, hw, hn]; have := n.isLt; omega
    rw [dif_pos hall]
    congr 1
    funext a
    refine Fin.ext ?_
    match a with
    | ⟨0, _⟩ =>
      show ((vecScatter N E wf).start (ix1 e) idx (0 : Fin 1)
          + ((vecScatter N E wf).window (ix1 e) (0 : Fin 1) : ℤ)).toNat = n.val
      rw [hs, hw, hn]; omega

theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1

  refine Finset.sum_nbij' (fun u : (⟨1, ![E]⟩ : Shape).Idx => (u 0 : Fin E)) (fun e : Fin E => ix1 e) ?_ ?_ ?_ ?_ ?_
  · intro u hu
    obtain ⟨e, rfl⟩ : ∃ e : Fin E, u = ix1 e := ⟨u 0, eq_ix1 u⟩
    exact Finset.mem_filter.mpr ⟨Finset.mem_univ _,
      (vecScatter_resultIdx?_eq_some wf idx e n).mp (Finset.mem_filter.mp hu).2⟩
  · intro e he
    exact Finset.mem_filter.mpr ⟨Finset.mem_univ _,
      (vecScatter_resultIdx?_eq_some wf idx e n).mpr (Finset.mem_filter.mp he).2⟩
  · intro u _
    exact (eq_ix1 u).symm
  · intro e _
    rfl
  · intro u _
    exact congrArg upd (eq_ix1 u)

theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (F := Ideal) (vecScatter N E wf) x idx upd (ix1 n)
      = x (ix1 n) + ∑ e ∈ Finset.univ.filter (fun e : Fin E => (idx (ix2 e (0 : Fin 1))).toInt = (n.val : ℤ)),
          upd (ix1 e) := by
  unfold Host.scatterAdd
  rw [Ideal.hostScatterAdd_def]
  exact scatterAdd_vec_apply wf x idx upd n

end VecScatter

end Cert.LibRows

end
-- ==== Proof.RefPool.lean ====
import proofs.«413861_j21509196218552_2_alg».proof.Proof.Gen.ReferenceIdeal
import proofs.«413861_j21509196218552_2_alg».proof.Proof.RefReadP
import proofs.«413861_j21509196218552_2_alg».proof.Proof.Spec
import proofs.«413861_j21509196218552_2_alg».proof.Proof.LibRowGatherScatter
import proofs.«413861_j21509196218552_2_alg».proof.Proof.LibVecScatter
import Idealize.ShloMosaic.Lib.IdealHost
import Idealize.ShloMosaic.Lib.StackMember
import Idealize.ShloMosaic.Lib.Pipeline.Value

set_option maxRecDepth 16384

noncomputable section

open scoped BigOperators

namespace Cert.ReferenceIdeal.RefSide

open Cert.ReferenceIdeal Cert.ReferenceIdeal.Gen Idealize.ShloMosaic Idealize.ShloMosaic.ValueIdx

theorem toInt_eq_natCast_iff (w : BitVec 32) (g : Nat) (hg : g < 2 ^ 31) :
    w.toInt = (g : ℤ) ↔ w = BitVec.ofNat 32 g := by
  constructor
  · intro h
    apply BitVec.eq_of_toNat_eq
    rw [BitVec.toNat_ofNat]
    have := w.isLt
    rw [BitVec.toInt_eq_toNat_cond] at h
    split at h <;> omega
  · rintro rfl
    rw [BitVec.toInt_eq_toNat_cond, BitVec.toNat_ofNat]
    have : g % 2 ^ 32 = g := Nat.mod_eq_of_lt (by omega)
    rw [this]
    split <;> omega

theorem bcastRow_apply {α : Type} {n k : Nat}
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (b : (⟨1, ![k]⟩ : Shape).Idx → α) (i : (⟨2, ![n, k]⟩ : Shape).Idx) :
    broadcastInDim ⟨2, ![n, k]⟩ ![0, 1] h2 (broadcastInDim ⟨2, ![1, k]⟩ ![1] h1 b) i
      = b (ix1 ⟨(i 1).val, idx2_lt1 i⟩) := by
  have hlt : (i 1).val < k := idx2_lt1 i
  exact (broadcastInDim_apply ![0, 1] h2 _ i (ix2 (0 : Fin 1) (⟨(i 1).val, hlt⟩ : Fin k)) (fun a => match a with
      | ⟨0, _⟩ => by show 0 = if (1 : Nat) = 1 then 0 else (i 0).val; rw [if_pos rfl]
      | ⟨1, _⟩ => by
        show (i 1).val = if k = 1 then 0 else (i 1).val
        split <;> omega)).trans
    (broadcastInDim_apply ![1] h1 b (ix2 (0 : Fin 1) (⟨(i 1).val, hlt⟩ : Fin k)) (ix1 ⟨(i 1).val, hlt⟩) (fun a => match a with
      | ⟨0, _⟩ => by
        show (i 1).val = if k = 1 then 0 else (i 1).val
        split <;> omega))

theorem dot_eq_mm {n k p : Nat} (d : DotDims ⟨2, ![n, k]⟩ ⟨2, ![k, p]⟩ ⟨2, ![n, p]⟩) (hd : d = DotDims.plain n k p)
    (l : FVec Ideal ⟨2, ![n, k]⟩ .f32) (r : FVec Ideal ⟨2, ![k, p]⟩ .f32) :
    Host.dotGeneral d none l r = Cert.Spec.mm l r := by
  subst hd
  funext i
  obtain ⟨a, b, rfl⟩ : ∃ (a : Fin n) (b : Fin p), i = ix2 a b := ⟨i 0, i 1, eq_ix2 i⟩
  exact StackMember.dotGeneral_plain_apply none l r a b

def preR (a : Vec Ideal S100000x64 .f32) (b2 : Vec Ideal S64 .f32) : Vec Ideal S100000x64 .f32 :=
  maximumf (F := Ideal) (φ := .f32)
    (addf (F := Ideal) (φ := .f32) a
      (broadcastInDim S100000x64 ![0, 1] bcast_S1x64_S100000x64_0_1 (broadcastInDim S1x64 ![1] bcast_S64_S1x64_1 b2)))
    (broadcastInDim S100000x64 ![] bcast_S_S100000x64 (constant (F := Ideal) S_ .f32 0x00000000#32))

def sumsR (h : Vec Ideal S100000x64 .f32) (batch : Vec Ideal S100000 .i32) : Vec Ideal S128x64 .f32 :=
  Host.scatterAdd (F := Ideal) (φ := .f32) scatter_S128x64_S100000x1_S100000x64_1_0_0_1
    (broadcastInDim S128x64 ![] bcast_S_S128x64 (constant (F := Ideal) S_ .f32 0x00000000#32))
    (broadcastInDim S100000x1 ![0] bcast_S100000_S100000x1_0 batch) h

def cntsR (batch : Vec Ideal S100000 .i32) : Vec Ideal S128 .f32 :=
  Host.scatterAdd (F := Ideal) (φ := .f32) scatter_S128_S100000x1_S100000_n_0_0_1
    (broadcastInDim S128 ![] bcast_S_S128 (constant (F := Ideal) S_ .f32 0x00000000#32))
    (broadcastInDim S100000x1 ![0] bcast_S100000_S100000x1_0 batch)
    (broadcastInDim S100000 ![] bcast_S_S100000 (constant (F := Ideal) S_ .f32 0x3F800000#32))

def meanR (s : Vec Ideal S128x64 .f32) (c : Vec Ideal S128 .f32) : Vec Ideal S128x64 .f32 :=
  Host.divf (F := Ideal) (φ := .f32) s
    (broadcastInDim S128x64 ![0, 1] bcast_S128x1_S128x64_0_1
      (broadcastInDim S128x1 ![0] bcast_S128_S128x1_0
        (maximumf (F := Ideal) (φ := .f32) c
          (broadcastInDim S128 ![] bcast_S_S128 (constant (F := Ideal) S_ .f32 0x3F800000#32)))))

def headR (m : Vec Ideal S128x64 .f32) (fc1w : Vec Ideal S64x128 .f32) (fc1b : Vec Ideal S128 .f32)
    (fc2w : Vec Ideal S128x1 .f32) (fc2b : Vec Ideal S1 .f32) : Vec Ideal S128x1 .f32 :=
  addf (F := Ideal) (φ := .f32)
    (Host.dotGeneral (F := Ideal) (φ₁ := .f32) (φ₂ := .f32) dot_S128x128_S128x1_S128x1_1_0_0_1_n_n none
      (maximumf (F := Ideal) (φ := .f32)
        (addf (F := Ideal) (φ := .f32)
          (Host.dotGeneral (F := Ideal) (φ₁ := .f32) (φ₂ := .f32) dot_S128x64_S64x128_S128x128_1_0_0_1_n_n none m fc1w)
          (broadcastInDim S128x128 ![0, 1] bcast_S1x128_S128x128_0_1 (broadcastInDim S1x128 ![1] bcast_S128_S1x128_1 fc1b)))
        (broadcastInDim S128x128 ![] bcast_S_S128x128 (constant (F := Ideal) S_ .f32 0x00000000#32)))
      fc2w)
    (broadcastInDim S128x1 ![0, 1] bcast_S1x1_S128x1_0_1 (broadcastInDim S1x1 ![1] bcast_S1_S1x1_1 fc2b))

def tailR (a : Vec Ideal S100000x64 .f32) (batch : Vec Ideal S100000 .i32) (b2 : Vec Ideal S64 .f32)
    (fc1w : Vec Ideal S64x128 .f32) (fc1b : Vec Ideal S128 .f32) (fc2w : Vec Ideal S128x1 .f32)
    (fc2b : Vec Ideal S1 .f32) : Vec Ideal S128x1 .f32 :=
  headR (meanR (sumsR (preR a b2) batch) (cntsR batch)) fc1w fc1b fc2w fc2b

theorem zeros_apply {T : Shape} (h : S_.BroadcastsInDim T ![]) (j : T.Idx) :
    broadcastInDim T ![] h (constant (F := Ideal) S_ .f32 0x00000000#32) j = 0 :=
  (broadcastInDim_scalar_apply h _ j).trans Ideal.ofBits_zero_f32

theorem ones_apply {T : Shape} (h : S_.BroadcastsInDim T ![]) (j : T.Idx) :
    broadcastInDim T ![] h (constant (F := Ideal) S_ .f32 0x3F800000#32) j = 1 :=
  (broadcastInDim_scalar_apply h _ j).trans Ideal.ofBits_one_f32

theorem labels_apply (batch : Vec Ideal S100000 .i32) (e : Fin 100000) :
    broadcastInDim S100000x1 ![0] bcast_S100000_S100000x1_0 batch (ix2 e (0 : Fin 1)) = batch (ix1 e) :=
  broadcastInDim_apply ![0] bcast_S100000_S100000x1_0 batch _ (ix1 e) (fun a => match a with
    | ⟨0, _⟩ => by show e.val = if (100000 : Nat) = 1 then 0 else e.val; rw [if_neg (by decide)])

theorem preR_eq (a : Vec Ideal S100000x64 .f32) (b2 : Vec Ideal S64 .f32) :
    preR a b2 = Cert.Spec.brelu a (Cert.Spec.rowOf b2) := by
  funext i
  have e1 : broadcastInDim S100000x64 ![0, 1] bcast_S1x64_S100000x64_0_1
      (broadcastInDim S1x64 ![1] bcast_S64_S1x64_1 b2) i = b2 (ix1 ⟨(i 1).val, idx2_lt1 i⟩) := bcastRow_apply _ _ b2 i
  have e2 := zeros_apply bcast_S_S100000x64 i
  exact congrArg₂ max (congrArg (a i + ·) e1) e2

theorem rows_dims : scatter_S128x64_S100000x1_S100000x64_1_0_0_1
    = Cert.LibRows.rowScatter 128 100000 64 scatter_S128x64_S100000x1_S100000x64_1_0_0_1_wf := rfl

theorem sumsR_eq (h : Vec Ideal S100000x64 .f32) (batch : Vec Ideal S100000 .i32) :
    sumsR h batch = Cert.Spec.segSum 128 (Cert.Spec.colOf batch) h := by
  funext i
  obtain ⟨g, c, rfl⟩ : ∃ (g : Fin 128) (c : Fin 64), i = ix2 g c := ⟨i 0, i 1, eq_ix2 i⟩
  unfold sumsR
  rw [rows_dims, Cert.LibRows.host_scatterAdd_rows_apply, zeros_apply, zero_add, Finset.sum_filter]
  refine Finset.sum_congr rfl fun e _ => ?_
  rw [labels_apply]
  exact if_congr (toInt_eq_natCast_iff _ g.val (by have := g.isLt; omega)) rfl rfl

theorem vec_dims : scatter_S128_S100000x1_S100000_n_0_0_1
    = Cert.LibRows.vecScatter 128 100000 scatter_S128_S100000x1_S100000_n_0_0_1_wf := rfl

theorem cntsR_eq (batch : Vec Ideal S100000 .i32) (g : Fin 128) :
    cntsR batch (ix1 g) = Cert.Spec.segCount 128 (Cert.Spec.colOf batch) (ix2 g (0 : Fin 1)) := by
  unfold cntsR
  rw [vec_dims, Cert.LibRows.host_scatterAdd_vec_apply, zeros_apply, zero_add, Finset.sum_filter]
  refine Finset.sum_congr rfl fun e _ => ?_
  rw [labels_apply, ones_apply]
  exact if_congr (toInt_eq_natCast_iff _ g.val (by have := g.isLt; omega)) rfl rfl

theorem meanR_eq (s : Vec Ideal S128x64 .f32) (c : Vec Ideal S128 .f32) (cnt : Cert.Spec.Mat 128 1)
    (hc : ∀ g : Fin 128, c (ix1 g) = cnt (ix2 g (0 : Fin 1))) : meanR s c = Cert.Spec.meanOf s cnt := by
  funext i
  obtain ⟨g, j, rfl⟩ : ∃ (g : Fin 128) (j : Fin 64), i = ix2 g j := ⟨i 0, i 1, eq_ix2 i⟩
  have e : broadcastInDim S128x64 ![0, 1] bcast_S128x1_S128x64_0_1
      (broadcastInDim S128x1 ![0] bcast_S128_S128x1_0
        (maximumf (F := Ideal) (φ := .f32) c
          (broadcastInDim S128 ![] bcast_S_S128 (constant (F := Ideal) S_ .f32 0x3F800000#32)))) (ix2 g j)
      = max (cnt (ix2 g (0 : Fin 1))) 1 := by
    refine (broadcastInDim_apply ![0, 1] bcast_S128x1_S128x64_0_1 _ (ix2 g j) (ix2 g (0 : Fin 1)) (fun a => match a with
      | ⟨0, _⟩ => by show g.val = if (128 : Nat) = 1 then 0 else g.val; rw [if_neg (by decide)]
      | ⟨1, _⟩ => by show 0 = if (1 : Nat) = 1 then 0 else j.val; rw [if_pos rfl])).trans ?_
    refine (broadcastInDim_apply ![0] bcast_S128_S128x1_0 _ (ix2 g (0 : Fin 1)) (ix1 g) (fun a => match a with
      | ⟨0, _⟩ => by show g.val = if (128 : Nat) = 1 then 0 else g.val; rw [if_neg (by decide)])).trans ?_
    exact congrArg₂ max (hc g) (ones_apply bcast_S_S128 (ix1 g))
  exact congrArg (Ideal.div (s (ix2 g j))) e

theorem brelu_eq {n k : Nat} (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (h0 : S_.BroadcastsInDim ⟨2, ![n, k]⟩ ![])
    (X : FVec Ideal ⟨2, ![n, k]⟩ .f32) (b : FVec Ideal ⟨1, ![k]⟩ .f32) :
    maximumf (F := Ideal) (φ := .f32)
        (addf (F := Ideal) (φ := .f32) X (broadcastInDim ⟨2, ![n, k]⟩ ![0, 1] h2 (broadcastInDim ⟨2, ![1, k]⟩ ![1] h1 b)))
        (broadcastInDim ⟨2, ![n, k]⟩ ![] h0 (constant (F := Ideal) S_ .f32 0x00000000#32))
      = Cert.Spec.brelu X (Cert.Spec.rowOf b) := by
  funext i
  exact congrArg₂ max (congrArg (X i + ·) (bcastRow_apply h1 h2 b i)) (zeros_apply h0 i)

theorem headR_eq (m : Vec Ideal S128x64 .f32) (fc1w : Vec Ideal S64x128 .f32) (fc1b : Vec Ideal S128 .f32)
    (fc2w : Vec Ideal S128x1 .f32) (fc2b : Vec Ideal S1 .f32) (s : Cert.Spec.Mat 128 64) (cnt : Cert.Spec.Mat 128 1)
    (hm : m = Cert.Spec.meanOf s cnt) :
    headR m fc1w fc1b fc2w fc2b
      = Cert.Spec.head s cnt fc1w (Cert.Spec.rowOf fc1b) fc2w (Cert.Spec.rowOf fc2b) := by
  subst hm
  have e1 := dot_eq_mm dot_S128x64_S64x128_S128x128_1_0_0_1_n_n rfl (Cert.Spec.meanOf s cnt) fc1w
  have e2 := brelu_eq bcast_S128_S1x128_1 bcast_S1x128_S128x128_0_1 bcast_S_S128x128
    (Cert.Spec.mm (Cert.Spec.meanOf s cnt) fc1w) fc1b
  have e3 := dot_eq_mm dot_S128x128_S128x1_S128x1_1_0_0_1_n_n rfl
    (Cert.Spec.brelu (Cert.Spec.mm (Cert.Spec.meanOf s cnt) fc1w) (Cert.Spec.rowOf fc1b)) fc2w
  unfold headR
  rw [e1, e2, e3]
  funext i
  exact congrArg (Cert.Spec.mm (Cert.Spec.brelu (Cert.Spec.mm (Cert.Spec.meanOf s cnt) fc1w) (Cert.Spec.rowOf fc1b)) fc2w i + ·)
    (bcastRow_apply bcast_S1_S1x1_1 bcast_S1x1_S128x1_0_1 fc2b i)

theorem tailR_eq (a : Vec Ideal S100000x64 .f32) (batch : Vec Ideal S100000 .i32) (b2 : Vec Ideal S64 .f32)
    (fc1w : Vec Ideal S64x128 .f32) (fc1b : Vec Ideal S128 .f32) (fc2w : Vec Ideal S128x1 .f32)
    (fc2b : Vec Ideal S1 .f32) :
    tailR a batch b2 fc1w fc1b fc2w fc2b
      = Cert.Spec.pool 128 (Cert.Spec.colOf batch) a (Cert.Spec.rowOf b2) fc1w (Cert.Spec.rowOf fc1b) fc2w
          (Cert.Spec.rowOf fc2b) := by
  unfold tailR Cert.Spec.pool
  rw [preR_eq, sumsR_eq]
  exact headR_eq _ fc1w fc1b fc2w fc2b _ _ (meanR_eq _ _ _ (cntsR_eq batch))

theorem val104_tail (x0 : (⟨S100000x3, .f32⟩ : BufTy).Contents (Elt Ideal))
    (x1 : (⟨S2x1600000, .i32⟩ : BufTy).Contents (Elt Ideal)) (x2 : (⟨S100000, .i32⟩ : BufTy).Contents (Elt Ideal))
    (x3 : (⟨S3x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x128, .f32⟩ : BufTy).Contents (Elt Ideal)) (x10 : (⟨S128, .f32⟩ : BufTy).Contents (Elt Ideal))
    (x11 : (⟨S128x1, .f32⟩ : BufTy).Contents (Elt Ideal)) (x12 : (⟨S1, .f32⟩ : BufTy).Contents (Elt Ideal)) :
    ReadP.val_main_v104 (F := Ideal) x0 x1 x2 x3 x4 x5 x6 x7 x8 x9 x10 x11 x12
      = tailR (ReadP.val_main_v79 (F := Ideal) x0 x1 x3 x4 x5 x6 x7) x2 x8 x9 x10 x11 x12 := rfl

end Cert.ReferenceIdeal.RefSide

end
-- ==== Proof.RefSide.lean ====
import proofs.«413861_j21509196218552_2_alg».proof.Proof.RefRunP
import proofs.«413861_j21509196218552_2_alg».proof.Proof.RefReadP
import proofs.«413861_j21509196218552_2_alg».proof.Proof.Spec
import proofs.«413861_j21509196218552_2_alg».proof.Proof.RefLayers
import proofs.«413861_j21509196218552_2_alg».proof.Proof.RefPool

set_option maxRecDepth 16384

noncomputable section

namespace Cert.ReferenceIdeal.RefSide

open Cert.ReferenceIdeal Cert.ReferenceIdeal.Gen Idealize.ShloMosaic Idealize.ShloMosaic.TcCoe Idealize.SL.Sem Idealize.ShloMosaic.StableHlo Idealize.ShloMosaic.ValueIdx

theorem ref_value (m : (ℓ : Loc nD τ sig) → Buf (Elt Ideal) ℓ) (c : Dev nD) :
    Cert.ReferenceIdeal.ValueP.res_main_v104 (F := Ideal) m c
      = Cert.Spec.pool 128 (Cert.Spec.colOf (m ((c.tc : Thread nD τ).loc main_arg2)))
          (aggR (m ((c.tc : Thread nD τ).loc main_arg1))
            (Cert.Spec.layer
              (aggR (m ((c.tc : Thread nD τ).loc main_arg1))
                (Cert.Spec.layer
                  (aggR (m ((c.tc : Thread nD τ).loc main_arg1))
                    (Cert.Spec.mm (m ((c.tc : Thread nD τ).loc main_arg0)) (m ((c.tc : Thread nD τ).loc main_arg3))))
                  (Cert.Spec.rowOf (m ((c.tc : Thread nD τ).loc main_arg4))) (m ((c.tc : Thread nD τ).loc main_arg5))))
              (Cert.Spec.rowOf (m ((c.tc : Thread nD τ).loc main_arg6))) (m ((c.tc : Thread nD τ).loc main_arg7))))
          (Cert.Spec.rowOf (m ((c.tc : Thread nD τ).loc main_arg8))) (m ((c.tc : Thread nD τ).loc main_arg9))
          (Cert.Spec.rowOf (m ((c.tc : Thread nD τ).loc main_arg10))) (m ((c.tc : Thread nD τ).loc main_arg11))
          (Cert.Spec.rowOf (m ((c.tc : Thread nD τ).loc main_arg12))) := by
  rw [ReadP.val_main_v104_eq, val104_tail, tailR_eq, val79_spec]

theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c => (h c).2) (Cert.ReferenceIdeal.ValueP.run (F := Ideal) m ρ)

end Cert.ReferenceIdeal.RefSide

end
-- ==== Proof.lean ====
import proofs.«413861_j21509196218552_2_alg».proof.Defs
import proofs.«413861_j21509196218552_2_alg».proof.Proof.Gen.Kernel
import proofs.«413861_j21509196218552_2_alg».proof.Proof.Gen.KernelIdeal
import proofs.«413861_j21509196218552_2_alg».proof.Proof.Gen.ReferenceIdeal
import proofs.«413861_j21509196218552_2_alg».proof.Proof.Gen.Pre_finite_inputs
import proofs.«413861_j21509196218552_2_alg».proof.Proof.KFrame
import proofs.«413861_j21509196218552_2_alg».proof.Proof.AsmRun
import proofs.«413861_j21509196218552_2_alg».proof.Proof.KVal
import proofs.«413861_j21509196218552_2_alg».proof.Proof.Bridge
import proofs.«413861_j21509196218552_2_alg».proof.Proof.RefSide
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run (F := Ideal) m ρ)

theorem frame_ri : Cert.frame_ReferenceIdeal (hReferenceIdeal := Cert.ReferenceIdeal.Gen.facts) (hPre_finite_inputs := Cert.Pre_finite_inputs.Gen.facts) :=
  fun m ρ _ => Cert.ReferenceIdeal.RefSide.frame_ref m ρ

theorem preserves : Cert.preserves_Kernel_KernelIdeal := trivial

-- both results are the pooling and head of the third aggregate, and the aggregates agree layer by layer
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V10 m (Cert.KernelIdeal.Hand.outs m) c (Proc.devRef .tc Cert.KernelIdeal.main_v78),
    Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  show _ = Cert.KernelIdeal.Gen.V10 m (Cert.KernelIdeal.Hand.outs m) c (Proc.devRef .tc Cert.KernelIdeal.main_v78)
  rw [Cert.ReferenceIdeal.RefSide.ref_value, Cert.KernelIdeal.Hand.kernel_value, h0, h1, h2, h3, h4, h5, h6, h7, h8, h9, h10, h11, h12]
  simp only [Cert.KernelIdeal.Hand.aggK_ref]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
